-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S512x1024 : Shape := ⟨2, ![512, 1024]⟩
abbrev S1x1 : Shape := ⟨2, ![1, 1]⟩
abbrev S1024x1 : Shape := ⟨2, ![1024, 1]⟩
abbrev S1 : Shape := ⟨1, ![1]⟩
abbrev S_ : Shape := ⟨0, ![]⟩

abbrev nBuf : Space → Nat
  | .hbm => 10
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .f32⟩
  | .hbm, ⟨8, _⟩ => ⟨S1x1, .f32⟩
  | .hbm, ⟨9, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem3_0 : DmaSem sig := 17
abbrev cc4_sem0_0 : DmaSem sig := 18
abbrev cc4_sem1_0 : DmaSem sig := 19
abbrev cc4_sem2_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_11 : BitVec 32 := 0#32
  let v23 : BitVec 1 := Scalar.cmpi .ne v22 c0_i32_11
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![16], ![false]⟩

def k3_cond2 (i : grid3.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_11 : BitVec 32 := 0#32
  let v23 : BitVec 1 := Scalar.cmpi .ne v22 c0_i32_11
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  broadcasts_S1x1024_S512x1024 : S1x1024.Broadcasts S512x1024
  bitsLt_bf16_f32 : FTy.bits .bf16 < FTy.bits .f32
  iota_S1024x1024_d0_w32 : S1024x1024.Iotas .tc 32 [0]
  iota_S1024x1024_d1_w32 : S1024x1024.Iotas .tc 32 [1]
  natLt_1_32 : 1 < 32
  reduces_S1024x1024_S1024_2 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S512x1024_S512x1024_S1024x1024_0_0_1_1_n_n_wf : DotDims.WF S512x1024 S512x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .f32 = 32 ∨ (Rect.block (s := S8192x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .f32 = 32 ∨ (Rect.block (s := S1024x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S8192x1024.size a
  hwx3_0 : ∀ i : grid3.Coords, EltTy.bits .f32 = 32 ∨ (Rect.block (s := S8192x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .f32 = 32 ∨ (Rect.block (s := S1024x1024) S1024x1024.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S1024x1024.size a
  hwx4_0 : ∀ i : grid4.Coords, EltTy.bits .f32 = 32 ∨ (Rect.block (s := S1024x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x1024.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x1024.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg1) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1_0) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v1_1) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x1024.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v2) S1024x1024.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1x1.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩
abbrev S1024x8192 : Shape := ⟨2, ![1024, 8192]⟩
abbrev S1024x1024 : Shape := ⟨2, ![1024, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1024x8192, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .i32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S1024x8192, .f32⟩
  | .hbm, ⟨84, _⟩ => ⟨S1024x1024, .f32⟩
  | .hbm, ⟨85, _⟩ => ⟨S_, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S_, .f32⟩
  | .hbm, ⟨90, _⟩ => ⟨S1024x1024, .f32⟩
  | .hbm, ⟨91, _⟩ => ⟨S1024x1024, .i32⟩
  | .hbm, ⟨92, _⟩ => ⟨S_, .i32⟩
  | .hbm, ⟨93, _⟩ => ⟨S1024x1024, .i32⟩
  | .hbm, ⟨94, _⟩ => ⟨S1024x1024, .i32⟩
  | .hbm, ⟨95, _⟩ => ⟨S1024x1024, .i32⟩
  | .hbm, ⟨96, _⟩ => ⟨S1024x1024, .i1⟩
  | .hbm, ⟨97, _⟩ => ⟨S_, .f32⟩
  | .hbm, ⟨98, _⟩ => ⟨S1024x1024, .f32⟩
  | .hbm, ⟨99, _⟩ => ⟨S1024x1024, .f32⟩
  | .hbm, ⟨100, _⟩ => ⟨S1024x1024, .f32⟩
  | .hbm, ⟨101, _⟩ => ⟨S1024x1024, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_v12 : Ref sig .tc := ⟨.hbm, 25, rfl⟩
abbrev main_call0_call0_cst_3 : Ref sig .tc := ⟨.hbm, 26, rfl⟩
abbrev main_call0_call0_v13 : Ref sig .tc := ⟨.hbm, 27, rfl⟩
abbrev main_call0_call0_cst_4 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_v0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_v18 : Ref sig .tc := ⟨.hbm, 50, rfl⟩
abbrev main_c_5 : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_cst_0 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_cst_1 : Ref sig .tc := ⟨.hbm, 62, rfl⟩
abbrev main_call1_call0_v8 : Ref sig .tc := ⟨.hbm, 63, rfl⟩
abbrev main_call1_call0_cst_2 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_call0_v12 : Ref sig .tc := ⟨.hbm, 68, rfl⟩
abbrev main_call1_call0_cst_3 : Ref sig .tc := ⟨.hbm, 69, rfl⟩
abbrev main_call1_call0_v13 : Ref sig .tc := ⟨.hbm, 70, rfl⟩
abbrev main_call1_call0_cst_4 : Ref sig .tc := ⟨.hbm, 71, rfl⟩
abbrev main_call1_call0_call0_v0 : Ref sig .tc := ⟨.hbm, 72, rfl⟩
abbrev main_call1_call0_call0_v1 : Ref sig .tc := ⟨.hbm, 73, rfl⟩
abbrev main_call1_v0 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_6 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_7 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_8 : Ref sig .tc := ⟨.hbm, 89, rfl⟩
abbrev main_v31 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_cst : Ref sig .tc := ⟨.hbm, 97, rfl⟩
abbrev main_call2_v5 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_cst_9 : Ref sig .tc := ⟨.hbm, 102, rfl⟩
abbrev main_v35 : Ref sig .tc := ⟨.hbm, 103, rfl⟩
abbrev main_cst_10 : Ref sig .tc := ⟨.hbm, 104, rfl⟩
abbrev main_v36 : Ref sig .tc := ⟨.hbm, 105, rfl⟩

abbrev nD : Nat := 1
abbrev τ : Topo := Topo.v7x

variable {F : FTy → Type} [FloatOps F]

class Facts₀ : Prop where
  reducesTo_S8192x1024_S1024_d0 : S8192x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S1024x1024 : S_.BroadcastsInDim S1024x1024 (![] : Fin 0 → Fin S1024x1024.rank)
  reducesTo_S1024x1024_S_d0_1 : S1024x1024.ReducesTo [0, 1] S_
  dot_S1024x8192_S8192x1024_S1024x1024_1_0_0_1_n_n_wf : DotDims.WF S1024x8192 S8192x1024 S1024x1024 [1] [0] [0] [1] [] []

variable [Facts₀]

def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf

class Facts : Prop extends Facts₀ where

variable [Facts]
-- ==== Proof.K.R0Runs.lean ====
import proofs.«158091_j65489661329953_1_alg».proof.Proof.Gen.Kernel.Launch
import proofs.«158091_j65489661329953_1_alg».proof.Proof.Gen.Kernel.Skeleton
import proofs.«158091_j65489661329953_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel

theorem idleAt0_1 : ∀ t : Fin cfg0.N, ¬cond0_1 (grid0.coords t) → cfg0.idle 1 (grid0.coords t) = true := by decide +kernel

theorem noFlush0_1 : ∀ t : Fin cfg0.N, ¬cond0_1 (grid0.coords t) → (cfg0.win 1).flush t = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_1 : ∀ t : Fin cfg0.N, cond0_1 (grid0.coords t) → cfg0.idle 1 (grid0.coords t) = false := by decide +kernel

theorem liveAt0_2 : ∀ t : Fin cfg0.N, cond0_1 (grid0.coords t) → cfg0.idle 2 (grid0.coords t) = false := by decide +kernel

abbrev VO0_1 : View sig .tc .vmem S1x1024 .f32 := (Memref.whole cc0_stg1_0 : Memref sig .tc .vmem S1x1024 .f32).view

abbrev VO0_2 : View sig .tc .vmem S1x1024 .f32 := (Memref.whole cc0_stg2_0 : Memref sig .tc .vmem S1x1024 .f32).view

abbrev ms0_0 (t : Fin cfg0.N) : Memref sig .tc .vmem S1024x1024 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1x1024 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S1x1024 .f32 := win0_2.stage (cfg0.slots t 2)

abbrev hs0_2 (t : Fin cfg0.N) : (ms0_2 t).IsWhole := hstage0_2 ((cfg0.slots t 2).cast nbuf0_2)

abbrev scM0_0 : Memref sig .tc .vmem S1x1024 .f32 := Memref.whole cc0_scratch0

abbrev scM0_1 : Memref sig .tc .vmem S1x1024 .f32 := Memref.whole cc0_scratch1

abbrev VS0_0 : View sig .tc .vmem S1x1024 .f32 := scM0_0.view

abbrev VS0_1 : View sig .tc .vmem S1x1024 .f32 := scM0_1.view

-- A function of the grid coordinates and the body's five operands, taken at one grid point.
abbrev atPt0 {α : grid0.Coords → Sort _} (f : ∀ (i : grid0.Coords) (a1 : Memref sig .tc .vmem S1024x1024 .f32), a1.IsWhole → ∀ a2 : Memref sig .tc .vmem S1x1024 .f32, a2.IsWhole → ∀ a3 : Memref sig .tc .vmem S1x1024 .f32, a3.IsWhole → ∀ a4 : Memref sig .tc .vmem S1x1024 .f32, a4.IsWhole → ∀ a5 : Memref sig .tc .vmem S1x1024 .f32, a5.IsWhole → α i) (t : Fin cfg0.N) : α (grid0.coords t) :=
  f (grid0.coords t) (ms0_0 t) (hs0_0 t) (ms0_1 t) (hs0_1 t) (ms0_2 t) (hs0_2 t) scM0_0 (Memref.isWhole_whole _) scM0_1 (Memref.isWhole_whole _)

def rest0 (c : Dev nD) : sProp 𝕄 :=
  Pipeline.scopedRestBut (Ix := Unit) (Name := ℕ) (U := UR sig nD τ) (Lvl := ℕ) (Val := Elt F) spec0 c [cc0_scratch0, cc0_scratch1]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ rest0 (F := F) c) :=
  Pipeline.scopedRest_split_of_list spec0 c [cc0_scratch0, cc0_scratch1] (by decide) (by decide)

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

end Cert.Kernel.Hand

end
-- ==== Proof.K.R0RunA.lean ====
import proofs.«158091_j65489661329953_1_alg».proof.Proof.K.R0Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i)
    (x0 : Vec F S1024x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, fun xi1 xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.R0RunB.lean ====
import proofs.«158091_j65489661329953_1_alg».proof.Proof.K.R0Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i)
    (x0 : Vec F S1024x1024 .f32) (xs0 : Vec F S1x1024 .f32) (xs1 : Vec F S1x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, fun xi1 xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.Kernel.Hand

end
-- ==== Proof.K.R0RunC.lean ====
import proofs.«158091_j65489661329953_1_alg».proof.Proof.K.R0Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 : Vec F S1024x1024 .f32) (xs0 : Vec F S1x1024 .f32) (xs1 : Vec F S1x1024 .f32) :
    Σ' (L1 : List (View.Piece (Elt F) S1x1024 .f32)), Σ' (L2 : List (View.Piece (Elt F) S1x1024 .f32)), Σ' (LS0 : List (View.Piece (Elt F) S1x1024 .f32)), { LS1 : List (View.Piece (Elt F) S1x1024 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, ?_, ?_, fun E K => ?run⟩
  case run =>
    simp only [cc0_kernel_eq_skeleton]; unfold cc0_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.K.R0Dat.lean ====
import proofs.«158091_j65489661329953_1_alg».proof.Proof.K.R0Runs
import proofs.«158091_j65489661329953_1_alg».proof.Proof.K.R0RunA
import proofs.«158091_j65489661329953_1_alg».proof.Proof.K.R0RunB
import proofs.«158091_j65489661329953_1_alg».proof.Proof.K.R0RunC
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)

theorem scover0_A_0 (hc0 : cond0_0 i) (hc1 : ¬cond0_1 i)
    (x0 : Vec F S1024x1024 .f32) (y : S1x1024.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x1024.size (by sl_kernel_rfl) y

def sout0_A_0 (hc0 : cond0_0 i) (hc1 : ¬cond0_1 i)
    (x0 : Vec F S1024x1024 .f32) : Vec F S1x1024 .f32 :=
  VS0_0.read (Elt F) (VS0_0.writes (Elt F) VS0_0.junk (kernelRun0_A c i arg1 harg1 arg2 harg2 arg3 harg3 arg4 harg4 arg5 harg5 hc0 hc1 x0).1)

theorem scover0_A_1 (hc0 : cond0_0 i) (hc1 : ¬cond0_1 i)
    (x0 : Vec F S1024x1024 .f32) (y : S1x1024.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x1024.size (by sl_kernel_rfl) y

def sout0_A_1 (hc0 : cond0_0 i) (hc1 : ¬cond0_1 i)
    (x0 : Vec F S1024x1024 .f32) : Vec F S1x1024 .f32 :=
  VS0_1.read (Elt F) (VS0_1.writes (Elt F) VS0_1.junk (kernelRun0_A c i arg1 harg1 arg2 harg2 arg3 harg3 arg4 harg4 arg5 harg5 hc0 hc1 x0).2.1)

theorem scover0_B_0 (hc0 : ¬cond0_0 i) (hc1 : ¬cond0_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x1024.size (by sl_kernel_rfl) y

def sout0_B_0 (hc0 : ¬cond0_0 i) (hc1 : ¬cond0_1 i)
    (x0 : Vec F S1024x1024 .f32) (xs0 : Vec F S1x1024 .f32) (xs1 : Vec F S1x1024 .f32) : Vec F S1x1024 .f32 :=
  VS0_0.read (Elt F) (VS0_0.writes (Elt F) VS0_0.junk (kernelRun0_B c i arg1 harg1 arg2 harg2 arg3 harg3 arg4 harg4 arg5 harg5 hc0 hc1 x0 xs0 xs1).1)

theorem scover0_B_1 (hc0 : ¬cond0_0 i) (hc1 : ¬cond0_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x1024.size (by sl_kernel_rfl) y

def sout0_B_1 (hc0 : ¬cond0_0 i) (hc1 : ¬cond0_1 i)
    (x0 : Vec F S1024x1024 .f32) (xs0 : Vec F S1x1024 .f32) (xs1 : Vec F S1x1024 .f32) : Vec F S1x1024 .f32 :=
  VS0_1.read (Elt F) (VS0_1.writes (Elt F) VS0_1.junk (kernelRun0_B c i arg1 harg1 arg2 harg2 arg3 harg3 arg4 harg4 arg5 harg5 hc0 hc1 x0 xs0 xs1).2.1)

theorem cover0_C_1 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1024.size (by sl_kernel_rfl) y

def out0_C_1 (hc0 : ¬cond0_0 i) (hc1 : cond0_1 i)
    (x0 : Vec F S1024x1024 .f32) (xs0 : Vec F S1x1024 .f32) (xs1 : Vec F S1x1024 .f32) : Vec F S1x1024 .f32 :=
  VO0_1.read (Elt F) (VO0_1.writes (Elt F) VO0_1.junk (kernelRun0_C c i arg1 harg1 arg2 harg2 arg3 harg3 arg4 harg4 arg5 harg5 hc0 hc1 x0 xs0 xs1).1)

theorem cover0_C_2 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1024.size (by sl_kernel_rfl) y

def out0_C_2 (hc0 : ¬cond0_0 i) (hc1 : cond0_1 i)
    (x0 : Vec F S1024x1024 .f32) (xs0 : Vec F S1x1024 .f32) (xs1 : Vec F S1x1024 .f32) : Vec F S1x1024 .f32 :=
  VO0_2.read (Elt F) (VO0_2.writes (Elt F) VO0_2.junk (kernelRun0_C c i arg1 harg1 arg2 harg2 arg3 harg3 arg4 harg4 arg5 harg5 hc0 hc1 x0 xs0 xs1).2.1)

theorem scover0_C_0 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1024.size (by sl_kernel_rfl) y

def sout0_C_0 (hc0 : ¬cond0_0 i) (hc1 : cond0_1 i)
    (x0 : Vec F S1024x1024 .f32) (xs0 : Vec F S1x1024 .f32) (xs1 : Vec F S1x1024 .f32) : Vec F S1x1024 .f32 :=
  VS0_0.read (Elt F) (VS0_0.writes (Elt F) VS0_0.junk (kernelRun0_C c i arg1 harg1 arg2 harg2 arg3 harg3 arg4 harg4 arg5 harg5 hc0 hc1 x0 xs0 xs1).2.2.1)

theorem scover0_C_1 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1024.size (by sl_kernel_rfl) y

def sout0_C_1 (hc0 : ¬cond0_0 i) (hc1 : cond0_1 i)
    (x0 : Vec F S1024x1024 .f32) (xs0 : Vec F S1x1024 .f32) (xs1 : Vec F S1x1024 .f32) : Vec F S1x1024 .f32 :=
  VS0_1.read (Elt F) (VS0_1.writes (Elt F) VS0_1.junk (kernelRun0_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

def junk0 : Vec F S1x1024 .f32 := VO0_1.read (Elt F) VO0_1.junk

theorem ncond0_0_succ (n : ℕ) (hn : n + 1 < cfg0.N) : ¬cond0_0 (grid0.coords ⟨n + 1, hn⟩) := fun h => by
  have hN : n + 1 < 8 := lt_of_lt_of_eq hn (show cfg0.N = 8 from N_0)
  have h' := (hcond0_0 ⟨n + 1, hn⟩).mp h
  dsimp only at h'; omega

def outsAt0 (c : Dev nD) : (n : ℕ) → n < cfg0.N → Vec F S1x1024 .f32 × Vec F S1x1024 .f32 × Vec F S1x1024 .f32 × Vec F S1x1024 .f32
  | 0, hn => (junk0, junk0, atPt0 (sout0_A_0 c) ⟨0, hn⟩ ((hcond0_0 ⟨0, hn⟩).mpr (Nat.zero_mod _)) (fun h => (fun h => by (try dsimp only at h); omega) ((hcond0_1 ⟨0, hn⟩).mp h)) (iblk0 V c 0 ⟨0, hn⟩), atPt0 (sout0_A_1 c) ⟨0, hn⟩ ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h1 : (n + 1) % 8 = 7 then
      (atPt0 (out0_C_1 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, atPt0 (out0_C_2 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, atPt0 (sout0_C_0 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, atPt0 (sout0_C_1 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
    else
      (junk0, junk0, atPt0 (sout0_B_0 c) ⟨n + 1, hn⟩ (ncond0_0_succ n hn) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, atPt0 (sout0_B_1 c) ⟨n + 1, hn⟩ (ncond0_0_succ n hn) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (junk0, junk0, atPt0 (sout0_A_0 c) t ((hcond0_0 t).mpr h0) (fun h => h1 ((hcond0_1 t).mp h)) (iblk0 V c 0 t), atPt0 (sout0_A_1 c) t ((hcond0_0 t).mpr h0) (fun h => h1 ((hcond0_1 t).mp h)) (iblk0 V c 0 t)) := by
  obtain ⟨n, hn⟩ := t
  cases n with
  | zero => exact rfl
  | succ n => exact (by exfalso; have hN : n + 1 < 8 := lt_of_lt_of_eq hn (show cfg0.N = 8 from N_0); (try dsimp only at h0); omega)

theorem outsAt0_B (c : Dev nD) (t : Fin cfg0.N) (h0 : ¬t.val % 8 = 0) (h1 : ¬t.val % 8 = 7) :
    outsAt0 V c t.val t.isLt = (junk0, junk0, atPt0 (sout0_B_0 c) t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (sout0_B_1 c) t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 8 = 0) (h1 : t.val % 8 = 7) :
    outsAt0 V c t.val t.isLt = (atPt0 (out0_C_1 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (out0_C_2 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (sout0_C_0 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (sout0_C_1 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]

theorem after0_1 (c : Dev nD) (t : Fin cfg0.N) : (dat0 V c).after 1 t = (outsAt0 V c t.val t.isLt).1 := by dsimp only [dat0]

theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 8 = 0
  · have h1 : ¬t.val % 8 = 7 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    rw [outsAt0_A V c t h0 h1]
    unfold atPt0 sout0_A_0 sout0_A_1; (try dsimp only)
    rw [PhiS0_castSucc V c t, PhiS0_zero V c _ _ hz, PhiA0_eq]
    iintro ⟨⟨⟨⟨HS0, HS1⟩, Hr⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _)
        iexact Hr
      iexact Hg
    isplitl [Ho]; · iexact Ho
    isplitl [H0]; · iexact H0
    isplitl [H1]; · iexists _; iexact H1
    iexists _; iexact H2
  · have hz : t.val ≠ 0 := by omega
    by_cases h1 : t.val % 8 = 7
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t ((hcond0_1 t).mpr h1)], after0_1]
      rw [show (dat0 V c).leavesExact 2 t = owns (c : Thread nD τ) (ms0_2 t) fullShare ((dat0 V c).after 2 t) from by
      unfold Dat.leavesExact; rw [liveAt0_2 t ((hcond0_1 t).mpr h1)], after0_2]
      rw [outsAt0_C V c t h0 h1]
      unfold atPt0 out0_C_1 out0_C_2 sout0_C_0 sout0_C_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold atPt0 sout0_B_0 sout0_B_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _)
          iexact Hr
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

theorem Phi0_first (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi0_out (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem Phi0_last (c : Dev nD) : (dat0 V c).Φ (Fin.last cfg0.N) ⊢ (Pipeline.ΦA spec0 c : sProp 𝕄) :=
  Phi0_out V c _ (by rw [Fin.val_last]; have : cfg0.N = 8 := N_0; omega)

theorem recorded0 (c : Dev nD) (t : Fin (cfg0.N + 1)) : (dat0 V c).recorded t = Set.univ := rfl

end Cert.Kernel.Hand

end
-- ==== Proof.K.R1Runs.lean ====
import proofs.«158091_j65489661329953_1_alg».proof.Proof.Gen.Kernel.Launch
import proofs.«158091_j65489661329953_1_alg».proof.Proof.Gen.Kernel.Skeleton
import proofs.«158091_j65489661329953_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel

theorem idleAt1_1 : ∀ t : Fin cfg1.N, ¬cond1_1 (grid1.coords t) → cfg1.idle 1 (grid1.coords t) = true := by decide +kernel

theorem noFlush1_1 : ∀ t : Fin cfg1.N, ¬cond1_1 (grid1.coords t) → (cfg1.win 1).flush t = false := by decide +kernel

theorem idleAt1_2 : ∀ t : Fin cfg1.N, ¬cond1_1 (grid1.coords t) → cfg1.idle 2 (grid1.coords t) = true := by decide +kernel

theorem noFlush1_2 : ∀ t : Fin cfg1.N, ¬cond1_1 (grid1.coords t) → (cfg1.win 2).flush t = false := by decide +kernel

theorem liveAt1_1 : ∀ t : Fin cfg1.N, cond1_1 (grid1.coords t) → cfg1.idle 1 (grid1.coords t) = false := by decide +kernel

theorem liveAt1_2 : ∀ t : Fin cfg1.N, cond1_1 (grid1.coords t) → cfg1.idle 2 (grid1.coords t) = false := by decide +kernel

abbrev VO1_1 : View sig .tc .vmem S1x1024 .f32 := (Memref.whole cc1_stg1_0 : Memref sig .tc .vmem S1x1024 .f32).view

abbrev VO1_2 : View sig .tc .vmem S1x1024 .f32 := (Memref.whole cc1_stg2_0 : Memref sig .tc .vmem S1x1024 .f32).view

abbrev ms1_0 (t : Fin cfg1.N) : Memref sig .tc .vmem S1024x1024 .f32 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S1x1024 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S1x1024 .f32 := win1_2.stage (cfg1.slots t 2)

abbrev hs1_2 (t : Fin cfg1.N) : (ms1_2 t).IsWhole := hstage1_2 ((cfg1.slots t 2).cast nbuf1_2)

abbrev scM1_0 : Memref sig .tc .vmem S1x1024 .f32 := Memref.whole cc1_scratch0

abbrev scM1_1 : Memref sig .tc .vmem S1x1024 .f32 := Memref.whole cc1_scratch1

abbrev VS1_0 : View sig .tc .vmem S1x1024 .f32 := scM1_0.view

abbrev VS1_1 : View sig .tc .vmem S1x1024 .f32 := scM1_1.view

-- A function of the grid coordinates and the body's five operands, taken at one grid point.
abbrev atPt1 {α : grid1.Coords → Sort _} (f : ∀ (i : grid1.Coords) (a1 : Memref sig .tc .vmem S1024x1024 .f32), a1.IsWhole → ∀ a2 : Memref sig .tc .vmem S1x1024 .f32, a2.IsWhole → ∀ a3 : Memref sig .tc .vmem S1x1024 .f32, a3.IsWhole → ∀ a4 : Memref sig .tc .vmem S1x1024 .f32, a4.IsWhole → ∀ a5 : Memref sig .tc .vmem S1x1024 .f32, a5.IsWhole → α i) (t : Fin cfg1.N) : α (grid1.coords t) :=
  f (grid1.coords t) (ms1_0 t) (hs1_0 t) (ms1_1 t) (hs1_1 t) (ms1_2 t) (hs1_2 t) scM1_0 (Memref.isWhole_whole _) scM1_1 (Memref.isWhole_whole _)

def rest1 (c : Dev nD) : sProp 𝕄 :=
  Pipeline.scopedRestBut (Ix := Unit) (Name := ℕ) (U := UR sig nD τ) (Lvl := ℕ) (Val := Elt F) spec1 c [cc1_scratch0, cc1_scratch1]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ rest1 (F := F) c) :=
  Pipeline.scopedRest_split_of_list spec1 c [cc1_scratch0, cc1_scratch1] (by decide) (by decide)

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

end Cert.Kernel.Hand

end
-- ==== Proof.K.R1Dat.lean ====
import proofs.«158091_j65489661329953_1_alg».proof.Proof.K.R1Runs
import proofs.«158091_j65489661329953_1_alg».proof.Proof.K.R0RunA
import proofs.«158091_j65489661329953_1_alg».proof.Proof.K.R0RunB
import proofs.«158091_j65489661329953_1_alg».proof.Proof.K.R0RunC
import Idealize.ShloMosaic.Lib.Ring

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)

theorem scover1_A_0 (hc0 : cond1_0 i) (hc1 : ¬cond1_1 i)
    (x0 : Vec F S1024x1024 .f32) (y : S1x1024.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x1024.size (by sl_kernel_rfl) y

def sout1_A_0 (hc0 : cond1_0 i) (hc1 : ¬cond1_1 i)
    (x0 : Vec F S1024x1024 .f32) : Vec F S1x1024 .f32 :=
  VS1_0.read (Elt F) (VS1_0.writes (Elt F) VS1_0.junk (kernelRun0_A c i arg1 harg1 arg2 harg2 arg3 harg3 arg4 harg4 arg5 harg5 hc0 hc1 x0).1)

theorem scover1_A_1 (hc0 : cond1_0 i) (hc1 : ¬cond1_1 i)
    (x0 : Vec F S1024x1024 .f32) (y : S1x1024.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x1024.size (by sl_kernel_rfl) y

def sout1_A_1 (hc0 : cond1_0 i) (hc1 : ¬cond1_1 i)
    (x0 : Vec F S1024x1024 .f32) : Vec F S1x1024 .f32 :=
  VS1_1.read (Elt F) (VS1_1.writes (Elt F) VS1_1.junk (kernelRun0_A c i arg1 harg1 arg2 harg2 arg3 harg3 arg4 harg4 arg5 harg5 hc0 hc1 x0).2.1)

theorem scover1_B_0 (hc0 : ¬cond1_0 i) (hc1 : ¬cond1_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x1024.size (by sl_kernel_rfl) y

def sout1_B_0 (hc0 : ¬cond1_0 i) (hc1 : ¬cond1_1 i)
    (x0 : Vec F S1024x1024 .f32) (xs0 : Vec F S1x1024 .f32) (xs1 : Vec F S1x1024 .f32) : Vec F S1x1024 .f32 :=
  VS1_0.read (Elt F) (VS1_0.writes (Elt F) VS1_0.junk (kernelRun0_B c i arg1 harg1 arg2 harg2 arg3 harg3 arg4 harg4 arg5 harg5 hc0 hc1 x0 xs0 xs1).1)

theorem scover1_B_1 (hc0 : ¬cond1_0 i) (hc1 : ¬cond1_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x1024.size (by sl_kernel_rfl) y

def sout1_B_1 (hc0 : ¬cond1_0 i) (hc1 : ¬cond1_1 i)
    (x0 : Vec F S1024x1024 .f32) (xs0 : Vec F S1x1024 .f32) (xs1 : Vec F S1x1024 .f32) : Vec F S1x1024 .f32 :=
  VS1_1.read (Elt F) (VS1_1.writes (Elt F) VS1_1.junk (kernelRun0_B c i arg1 harg1 arg2 harg2 arg3 harg3 arg4 harg4 arg5 harg5 hc0 hc1 x0 xs0 xs1).2.1)

theorem cover1_C_1 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1024.size (by sl_kernel_rfl) y

def out1_C_1 (hc0 : ¬cond1_0 i) (hc1 : cond1_1 i)
    (x0 : Vec F S1024x1024 .f32) (xs0 : Vec F S1x1024 .f32) (xs1 : Vec F S1x1024 .f32) : Vec F S1x1024 .f32 :=
  VO1_1.read (Elt F) (VO1_1.writes (Elt F) VO1_1.junk (kernelRun0_C c i arg1 harg1 arg2 harg2 arg3 harg3 arg4 harg4 arg5 harg5 hc0 hc1 x0 xs0 xs1).1)

theorem cover1_C_2 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1024.size (by sl_kernel_rfl) y

def out1_C_2 (hc0 : ¬cond1_0 i) (hc1 : cond1_1 i)
    (x0 : Vec F S1024x1024 .f32) (xs0 : Vec F S1x1024 .f32) (xs1 : Vec F S1x1024 .f32) : Vec F S1x1024 .f32 :=
  VO1_2.read (Elt F) (VO1_2.writes (Elt F) VO1_2.junk (kernelRun0_C c i arg1 harg1 arg2 harg2 arg3 harg3 arg4 harg4 arg5 harg5 hc0 hc1 x0 xs0 xs1).2.1)

theorem scover1_C_0 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1024.size (by sl_kernel_rfl) y

def sout1_C_0 (hc0 : ¬cond1_0 i) (hc1 : cond1_1 i)
    (x0 : Vec F S1024x1024 .f32) (xs0 : Vec F S1x1024 .f32) (xs1 : Vec F S1x1024 .f32) : Vec F S1x1024 .f32 :=
  VS1_0.read (Elt F) (VS1_0.writes (Elt F) VS1_0.junk (kernelRun0_C c i arg1 harg1 arg2 harg2 arg3 harg3 arg4 harg4 arg5 harg5 hc0 hc1 x0 xs0 xs1).2.2.1)

theorem scover1_C_1 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1024.size (by sl_kernel_rfl) y

def sout1_C_1 (hc0 : ¬cond1_0 i) (hc1 : cond1_1 i)
    (x0 : Vec F S1024x1024 .f32) (xs0 : Vec F S1x1024 .f32) (xs1 : Vec F S1x1024 .f32) : Vec F S1x1024 .f32 :=
  VS1_1.read (Elt F) (VS1_1.writes (Elt F) VS1_1.junk (kernelRun0_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

def junk1 : Vec F S1x1024 .f32 := VO1_1.read (Elt F) VO1_1.junk

theorem ncond1_0_succ (n : ℕ) (hn : n + 1 < cfg1.N) : ¬cond1_0 (grid1.coords ⟨n + 1, hn⟩) := fun h => by
  have hN : n + 1 < 8 := lt_of_lt_of_eq hn (show cfg1.N = 8 from N_1)
  have h' := (hcond1_0 ⟨n + 1, hn⟩).mp h
  dsimp only at h'; omega

def outsAt1 (c : Dev nD) : (n : ℕ) → n < cfg1.N → Vec F S1x1024 .f32 × Vec F S1x1024 .f32 × Vec F S1x1024 .f32 × Vec F S1x1024 .f32
  | 0, hn => (junk1, junk1, atPt1 (sout1_A_0 c) ⟨0, hn⟩ ((hcond1_0 ⟨0, hn⟩).mpr (Nat.zero_mod _)) (fun h => (fun h => by (try dsimp only at h); omega) ((hcond1_1 ⟨0, hn⟩).mp h)) (iblk1 V c 0 ⟨0, hn⟩), atPt1 (sout1_A_1 c) ⟨0, hn⟩ ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 8 = 7 then
      (atPt1 (out1_C_1 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, atPt1 (out1_C_2 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, atPt1 (sout1_C_0 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, atPt1 (sout1_C_1 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
    else
      (junk1, junk1, atPt1 (sout1_B_0 c) ⟨n + 1, hn⟩ (ncond1_0_succ n hn) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, atPt1 (sout1_B_1 c) ⟨n + 1, hn⟩ (ncond1_0_succ n hn) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (junk1, junk1, atPt1 (sout1_A_0 c) t ((hcond1_0 t).mpr h0) (fun h => h1 ((hcond1_1 t).mp h)) (iblk1 V c 0 t), atPt1 (sout1_A_1 c) t ((hcond1_0 t).mpr h0) (fun h => h1 ((hcond1_1 t).mp h)) (iblk1 V c 0 t)) := by
  obtain ⟨n, hn⟩ := t
  cases n with
  | zero => exact rfl
  | succ n => exact (by exfalso; have hN : n + 1 < 8 := lt_of_lt_of_eq hn (show cfg1.N = 8 from N_1); (try dsimp only at h0); omega)

theorem outsAt1_B (c : Dev nD) (t : Fin cfg1.N) (h0 : ¬t.val % 8 = 0) (h1 : ¬t.val % 8 = 7) :
    outsAt1 V c t.val t.isLt = (junk1, junk1, atPt1 (sout1_B_0 c) t (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (sout1_B_1 c) t (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 8 = 0) (h1 : t.val % 8 = 7) :
    outsAt1 V c t.val t.isLt = (atPt1 (out1_C_1 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (out1_C_2 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (sout1_C_0 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (sout1_C_1 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]

theorem after1_1 (c : Dev nD) (t : Fin cfg1.N) : (dat1 V c).after 1 t = (outsAt1 V c t.val t.isLt).1 := by dsimp only [dat1]

theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · have h1 : ¬t.val % 8 = 7 := by omega
    have hz : t.val = 0 := by omega
    rw [show (dat1 V c).leavesExact 0 t = owns (c : Thread nD τ) (ms1_0 t) fullShare ((dat1 V c).after 0 t) from by
      unfold Dat.leavesExact; rw [liveAt1_0 t], after1_0]
    rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    rw [outsAt1_A V c t h0 h1]
    unfold atPt1 sout1_A_0 sout1_A_1; (try dsimp only)
    rw [PhiS1_castSucc V c t, PhiS1_zero V c _ _ hz, PhiA1_eq]
    iintro ⟨⟨⟨⟨HS0, HS1⟩, Hr⟩, Hg⟩, Ho, ⟨%d0, H0⟩, ⟨%d1, H1⟩, ⟨%d2, H2⟩⟩
    iapply ((kernelRun0_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _)
        iexact Hr
      iexact Hg
    isplitl [Ho]; · iexact Ho
    isplitl [H0]; · iexact H0
    isplitl [H1]; · iexists _; iexact H1
    iexists _; iexact H2
  · have hz : t.val ≠ 0 := by omega
    by_cases h1 : t.val % 8 = 7
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t ((hcond1_1 t).mpr h1)], after1_1]
      rw [show (dat1 V c).leavesExact 2 t = owns (c : Thread nD τ) (ms1_2 t) fullShare ((dat1 V c).after 2 t) from by
      unfold Dat.leavesExact; rw [liveAt1_2 t ((hcond1_1 t).mpr h1)], after1_2]
      rw [outsAt1_C V c t h0 h1]
      unfold atPt1 out1_C_1 out1_C_2 sout1_C_0 sout1_C_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun0_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold atPt1 sout1_B_0 sout1_B_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun0_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _)
          iexact Hr
        iexact Hg
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem Phi1_first (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem Phi1_last (c : Dev nD) : (dat1 V c).Φ (Fin.last cfg1.N) ⊢ (Pipeline.ΦA spec1 c : sProp 𝕄) :=
  Phi1_out V c _ (by rw [Fin.val_last]; have : cfg1.N = 8 := N_1; omega)

theorem recorded1 (c : Dev nD) (t : Fin (cfg1.N + 1)) : (dat1 V c).recorded t = Set.univ := rfl

end Cert.Kernel.Hand

end
-- ==== Proof.K.R2Runs.lean ====
import proofs.«158091_j65489661329953_1_alg».proof.Proof.Gen.Kernel.Launch
import proofs.«158091_j65489661329953_1_alg».proof.Proof.Gen.Kernel.Skeleton
import proofs.«158091_j65489661329953_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1

theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem idleAt2_3_A : ∀ t : Fin cfg2.N, cond2_0 (grid2.coords t) → ¬cond2_1 (grid2.coords t) → cfg2.idle 3 (grid2.coords t) = true := by decide +kernel

theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel

theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

abbrev VO2_3 : View sig .tc .vmem S1024x1024 .f32 := (Memref.whole cc2_stg3_0 : Memref sig .tc .vmem S1024x1024 .f32).view

abbrev ms2_0 (t : Fin cfg2.N) : Memref sig .tc .vmem S512x1024 .f32 := win2_0.stage (cfg2.slots t 0)

abbrev hs2_0 (t : Fin cfg2.N) : (ms2_0 t).IsWhole := hstage2_0 ((cfg2.slots t 0).cast nbuf2_0)

abbrev ms2_1 (t : Fin cfg2.N) : Memref sig .tc .vmem S1x1024 .f32 := win2_1.stage (cfg2.slots t 1)

abbrev hs2_1 (t : Fin cfg2.N) : (ms2_1 t).IsWhole := hstage2_1 ((cfg2.slots t 1).cast nbuf2_1)

abbrev ms2_2 (t : Fin cfg2.N) : Memref sig .tc .vmem S1x1024 .f32 := win2_2.stage (cfg2.slots t 2)

abbrev hs2_2 (t : Fin cfg2.N) : (ms2_2 t).IsWhole := hstage2_2 ((cfg2.slots t 2).cast nbuf2_2)

abbrev ms2_3 (t : Fin cfg2.N) : Memref sig .tc .vmem S1024x1024 .f32 := win2_3.stage (cfg2.slots t 3)

abbrev hs2_3 (t : Fin cfg2.N) : (ms2_3 t).IsWhole := hstage2_3 ((cfg2.slots t 3).cast nbuf2_3)

abbrev scM2_0 : Memref sig .tc .vmem S1024x1024 .f32 := Memref.whole cc2_scratch0

abbrev VS2_0 : View sig .tc .vmem S1024x1024 .f32 := scM2_0.view

-- A function of the grid coordinates and the body's five operands, taken at one grid point.
abbrev atPt2 {α : grid2.Coords → Sort _} (f : ∀ (i : grid2.Coords) (a1 : Memref sig .tc .vmem S512x1024 .f32), a1.IsWhole → ∀ a2 : Memref sig .tc .vmem S1x1024 .f32, a2.IsWhole → ∀ a3 : Memref sig .tc .vmem S1x1024 .f32, a3.IsWhole → ∀ a4 : Memref sig .tc .vmem S1024x1024 .f32, a4.IsWhole → ∀ a5 : Memref sig .tc .vmem S1024x1024 .f32, a5.IsWhole → α i) (t : Fin cfg2.N) : α (grid2.coords t) :=
  f (grid2.coords t) (ms2_0 t) (hs2_0 t) (ms2_1 t) (hs2_1 t) (ms2_2 t) (hs2_2 t) (ms2_3 t) (hs2_3 t) scM2_0 (Memref.isWhole_whole _)

theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2_0, owns_whole]; try rfl

end Cert.Kernel.Hand

end
-- ==== Proof.K.R2RunA.lean ====
import proofs.«158091_j65489661329953_1_alg».proof.Proof.K.R2Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (hc0 : cond2_0 i) (hc1 : ¬cond2_1 i)
    (x0 : Vec F S512x1024 .f32) (x1 : Vec F S1x1024 .f32) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.R2RunB.lean ====
import proofs.«158091_j65489661329953_1_alg».proof.Proof.K.R2Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond2_0 i) (hc1 : ¬cond2_1 i)
    (x0 : Vec F S512x1024 .f32) (x1 : Vec F S1x1024 .f32) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.R2RunC.lean ====
import proofs.«158091_j65489661329953_1_alg».proof.Proof.K.R2Runs

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond2_0 i) (hc1 : cond2_1 i)
    (x0 : Vec F S512x1024 .f32) (x1 : Vec F S1x1024 .f32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.R2Dat.lean ====
import proofs.«158091_j65489661329953_1_alg».proof.Proof.K.R2Runs
import proofs.«158091_j65489661329953_1_alg».proof.Proof.K.R2RunA
import proofs.«158091_j65489661329953_1_alg».proof.Proof.K.R2RunB
import proofs.«158091_j65489661329953_1_alg».proof.Proof.K.R2RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole)

def out2_A_3 (hc0 : cond2_0 i) (hc1 : ¬cond2_1 i)
    (x0 : Vec F S512x1024 .f32) (x1 : Vec F S1x1024 .f32) (x2 : Vec F S1x1024 .f32) : Vec F S1024x1024 .f32 :=
  VO2_3.read (Elt F) (VO2_3.writes (Elt F) VO2_3.junk (kernelRun2_A c i arg1 harg1 arg2 harg2 arg3 harg3 arg4 harg4 arg5 harg5 hc0 hc1 x0 x1 x2).1)

theorem scover2_A_0 (hc0 : cond2_0 i) (hc1 : ¬cond2_1 i)
    (x0 : Vec F S512x1024 .f32) (x1 : Vec F S1x1024 .f32) (x2 : Vec F S1x1024 .f32) (y : S1024x1024.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1024x1024.size (by sl_kernel_rfl) y

def sout2_A_0 (hc0 : cond2_0 i) (hc1 : ¬cond2_1 i)
    (x0 : Vec F S512x1024 .f32) (x1 : Vec F S1x1024 .f32) (x2 : Vec F S1x1024 .f32) : Vec F S1024x1024 .f32 :=
  VS2_0.read (Elt F) (VS2_0.writes (Elt F) VS2_0.junk (kernelRun2_A c i arg1 harg1 arg2 harg2 arg3 harg3 arg4 harg4 arg5 harg5 hc0 hc1 x0 x1 x2).2.1)

def out2_B_3 (hc0 : ¬cond2_0 i) (hc1 : ¬cond2_1 i)
    (x0 : Vec F S512x1024 .f32) (x1 : Vec F S1x1024 .f32) (x2 : Vec F S1x1024 .f32) (xs0 : Vec F S1024x1024 .f32) : Vec F S1024x1024 .f32 :=
  VO2_3.read (Elt F) (VO2_3.writes (Elt F) VO2_3.junk (kernelRun2_B c i arg1 harg1 arg2 harg2 arg3 harg3 arg4 harg4 arg5 harg5 hc0 hc1 x0 x1 x2 xs0).1)

theorem scover2_B_0 (hc0 : ¬cond2_0 i) (hc1 : ¬cond2_1 i)
    (x0 : Vec F S512x1024 .f32) (x1 : Vec F S1x1024 .f32) (x2 : Vec F S1x1024 .f32) (xs0 : Vec F S1024x1024 .f32) (y : S1024x1024.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1024x1024.size (by sl_kernel_rfl) y

def sout2_B_0 (hc0 : ¬cond2_0 i) (hc1 : ¬cond2_1 i)
    (x0 : Vec F S512x1024 .f32) (x1 : Vec F S1x1024 .f32) (x2 : Vec F S1x1024 .f32) (xs0 : Vec F S1024x1024 .f32) : Vec F S1024x1024 .f32 :=
  VS2_0.read (Elt F) (VS2_0.writes (Elt F) VS2_0.junk (kernelRun2_B c i arg1 harg1 arg2 harg2 arg3 harg3 arg4 harg4 arg5 harg5 hc0 hc1 x0 x1 x2 xs0).2.1)

theorem cover2_C_3 (hc0 : ¬cond2_0 i) (hc1 : cond2_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1024x1024.size (by sl_kernel_rfl) y

def out2_C_3 (hc0 : ¬cond2_0 i) (hc1 : cond2_1 i)
    (x0 : Vec F S512x1024 .f32) (x1 : Vec F S1x1024 .f32) (x2 : Vec F S1x1024 .f32) (xs0 : Vec F S1024x1024 .f32) : Vec F S1024x1024 .f32 :=
  VO2_3.read (Elt F) (VO2_3.writes (Elt F) VO2_3.junk (kernelRun2_C c i arg1 harg1 arg2 harg2 arg3 harg3 arg4 harg4 arg5 harg5 hc0 hc1 x0 x1 x2 xs0).1)

theorem scover2_C_0 (hc0 : ¬cond2_0 i) (hc1 : cond2_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1024x1024.size (by sl_kernel_rfl) y

def sout2_C_0 (hc0 : ¬cond2_0 i) (hc1 : cond2_1 i)
    (x0 : Vec F S512x1024 .f32) (x1 : Vec F S1x1024 .f32) (x2 : Vec F S1x1024 .f32) (xs0 : Vec F S1024x1024 .f32) : Vec F S1024x1024 .f32 :=
  VS2_0.read (Elt F) (VS2_0.writes (Elt F) VS2_0.junk (kernelRun2_C c i arg1 harg1 arg2 harg2 arg3 harg3 arg4 harg4 arg5 harg5 hc0 hc1 x0 x1 x2 xs0).2.1)

theorem ncond2_0_succ (n : ℕ) (hn : n + 1 < cfg2.N) : ¬cond2_0 (grid2.coords ⟨n + 1, hn⟩) := fun h => by
  have h' := (hcond2_0 ⟨n + 1, hn⟩).mp h
  have hN : n + 1 < 16 := lt_of_lt_of_eq hn (show cfg2.N = 16 from N_2)
  dsimp only at h'; omega

def outsAt2 (c : Dev nD) : (n : ℕ) → n < cfg2.N → Vec F S1024x1024 .f32 × Vec F S1024x1024 .f32
  | 0, hn => (atPt2 (out2_A_3 c) ⟨0, hn⟩ ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), atPt2 (sout2_A_0 c) ⟨0, hn⟩ ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h1 : (n + 1) % 16 = 15 then
      (atPt2 (out2_C_3 c) ⟨n + 1, hn⟩ (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, atPt2 (sout2_C_0 c) ⟨n + 1, hn⟩ (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (atPt2 (out2_B_3 c) ⟨n + 1, hn⟩ (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, atPt2 (sout2_B_0 c) ⟨n + 1, hn⟩ (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (atPt2 (out2_A_3 c) t ((hcond2_0 t).mpr h0) (fun h => h1 ((hcond2_1 t).mp h)) (iblk2 V c 0 t) (iblk2 V c 1 t) (iblk2 V c 2 t), atPt2 (sout2_A_0 c) t ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n =>
    exfalso
    have hN : n + 1 < 16 := lt_of_lt_of_eq hn (show cfg2.N = 16 from N_2)
    dsimp only at h0; omega

theorem outsAt2_B (c : Dev nD) (t : Fin cfg2.N) (h0 : ¬t.val % 16 = 0) (h1 : ¬t.val % 16 = 15) :
    outsAt2 V c t.val t.isLt = (atPt2 (out2_B_3 c) t (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, atPt2 (sout2_B_0 c) t (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt2_C (c : Dev nD) (t : Fin cfg2.N) (h0 : ¬t.val % 16 = 0) (h1 : t.val % 16 = 15) :
    outsAt2 V c t.val t.isLt = (atPt2 (out2_C_3 c) t (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, atPt2 (sout2_C_0 c) t (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

abbrev rest2 (c : Dev nD) : sProp 𝕄 :=
  Pipeline.scopedRestBut (Ix := Unit) (Name := ℕ) (U := UR sig nD τ) (Lvl := ℕ) (Val := Elt F) spec2 c [cc2_scratch0]

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).share w = fullShare :=
  (dat2 V c).share_full (fun _ => rfl) w

theorem owed2 (c : Dev nD) (t : Fin (cfg2.N + 1)) : (dat2 V c).owed t = 0 := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold atPt2 sout2_A_0; (try dsimp only)
      have hz : t.val = 0 := by omega
      rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · by_cases h1 : t.val % 16 = 15
    ·
      rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3_C t (fun h => h0 ((hcond2_0 t).mp h)) ((hcond2_1 t).mpr h1)], after2_3]
      rw [outsAt2_C V c t h0 h1]
      unfold atPt2 out2_C_3 sout2_C_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold atPt2 sout2_B_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem Phi2_first (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem Phi2_last (c : Dev nD) : (dat2 V c).Φ (Fin.last cfg2.N) ⊢ (Pipeline.ΦA spec2 c : sProp 𝕄) :=
  Phi2_out V c _ (by rw [Fin.val_last]; have : cfg2.N = 16 := N_2; omega)

theorem recorded2 (c : Dev nD) (t : Fin (cfg2.N + 1)) : (dat2 V c).recorded t = Set.univ := rfl

end Cert.Kernel.Hand

end
-- ==== Proof.K.R3Runs.lean ====
import proofs.«158091_j65489661329953_1_alg».proof.Proof.Gen.Kernel.Launch
import proofs.«158091_j65489661329953_1_alg».proof.Proof.Gen.Kernel.Skeleton
import proofs.«158091_j65489661329953_1_alg».proof.Proof.Gen.Kernel.Points
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1

theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel

theorem liveAt3_1 : ∀ t : Fin cfg3.N, cfg3.idle 1 (grid3.coords t) = false := by decide +kernel

theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel

theorem noFlush3_3_A : ∀ t : Fin cfg3.N, cond3_0 (grid3.coords t) → ¬cond3_1 (grid3.coords t) → (cfg3.win 3).flush t = false := by decide +kernel

theorem idleAt3_3_B : ∀ t : Fin cfg3.N, ¬cond3_0 (grid3.coords t) → ¬cond3_1 (grid3.coords t) → cfg3.idle 3 (grid3.coords t) = true := by decide +kernel

theorem noFlush3_3_B : ∀ t : Fin cfg3.N, ¬cond3_0 (grid3.coords t) → ¬cond3_1 (grid3.coords t) → (cfg3.win 3).flush t = false := by decide +kernel

theorem liveAt3_3_C : ∀ t : Fin cfg3.N, ¬cond3_0 (grid3.coords t) → cond3_1 (grid3.coords t) → cfg3.idle 3 (grid3.coords t) = false := by decide +kernel

abbrev VO3_3 : View sig .tc .vmem S1024x1024 .f32 := (Memref.whole cc3_stg3_0 : Memref sig .tc .vmem S1024x1024 .f32).view

abbrev ms3_0 (t : Fin cfg3.N) : Memref sig .tc .vmem S512x1024 .f32 := win3_0.stage (cfg3.slots t 0)

abbrev hs3_0 (t : Fin cfg3.N) : (ms3_0 t).IsWhole := hstage3_0 ((cfg3.slots t 0).cast nbuf3_0)

abbrev ms3_1 (t : Fin cfg3.N) : Memref sig .tc .vmem S1x1024 .f32 := win3_1.stage (cfg3.slots t 1)

abbrev hs3_1 (t : Fin cfg3.N) : (ms3_1 t).IsWhole := hstage3_1 ((cfg3.slots t 1).cast nbuf3_1)

abbrev ms3_2 (t : Fin cfg3.N) : Memref sig .tc .vmem S1x1024 .f32 := win3_2.stage (cfg3.slots t 2)

abbrev hs3_2 (t : Fin cfg3.N) : (ms3_2 t).IsWhole := hstage3_2 ((cfg3.slots t 2).cast nbuf3_2)

abbrev ms3_3 (t : Fin cfg3.N) : Memref sig .tc .vmem S1024x1024 .f32 := win3_3.stage (cfg3.slots t 3)

abbrev hs3_3 (t : Fin cfg3.N) : (ms3_3 t).IsWhole := hstage3_3 ((cfg3.slots t 3).cast nbuf3_3)

abbrev scM3_0 : Memref sig .tc .vmem S1024x1024 .f32 := Memref.whole cc3_scratch0

abbrev VS3_0 : View sig .tc .vmem S1024x1024 .f32 := scM3_0.view

-- A function of the grid coordinates and the body's five operands, taken at one grid point.
abbrev atPt3 {α : grid3.Coords → Sort _} (f : ∀ (i : grid3.Coords) (a1 : Memref sig .tc .vmem S512x1024 .f32), a1.IsWhole → ∀ a2 : Memref sig .tc .vmem S1x1024 .f32, a2.IsWhole → ∀ a3 : Memref sig .tc .vmem S1x1024 .f32, a3.IsWhole → ∀ a4 : Memref sig .tc .vmem S1024x1024 .f32, a4.IsWhole → ∀ a5 : Memref sig .tc .vmem S1024x1024 .f32, a5.IsWhole → α i) (t : Fin cfg3.N) : α (grid3.coords t) :=
  f (grid3.coords t) (ms3_0 t) (hs3_0 t) (ms3_1 t) (hs3_1 t) (ms3_2 t) (hs3_2 t) (ms3_3 t) (hs3_3 t) scM3_0 (Memref.isWhole_whole _)

theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3_0, owns_whole]; try rfl

end Cert.Kernel.Hand

end
-- ==== Proof.K.R3Dat.lean ====
import proofs.«158091_j65489661329953_1_alg».proof.Proof.K.R3Runs
import proofs.«158091_j65489661329953_1_alg».proof.Proof.K.R2RunA
import proofs.«158091_j65489661329953_1_alg».proof.Proof.K.R2RunB
import proofs.«158091_j65489661329953_1_alg».proof.Proof.K.R2RunC

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (i : grid3.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole)

def out3_A_3 (hc0 : cond3_0 i) (hc1 : ¬cond3_1 i)
    (x0 : Vec F S512x1024 .f32) (x1 : Vec F S1x1024 .f32) (x2 : Vec F S1x1024 .f32) : Vec F S1024x1024 .f32 :=
  VO3_3.read (Elt F) (VO3_3.writes (Elt F) VO3_3.junk (kernelRun2_A c i arg1 harg1 arg2 harg2 arg3 harg3 arg4 harg4 arg5 harg5 hc0 hc1 x0 x1 x2).1)

theorem scover3_A_0 (hc0 : cond3_0 i) (hc1 : ¬cond3_1 i)
    (x0 : Vec F S512x1024 .f32) (x1 : Vec F S1x1024 .f32) (x2 : Vec F S1x1024 .f32) (y : S1024x1024.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1024x1024.size (by sl_kernel_rfl) y

def sout3_A_0 (hc0 : cond3_0 i) (hc1 : ¬cond3_1 i)
    (x0 : Vec F S512x1024 .f32) (x1 : Vec F S1x1024 .f32) (x2 : Vec F S1x1024 .f32) : Vec F S1024x1024 .f32 :=
  VS3_0.read (Elt F) (VS3_0.writes (Elt F) VS3_0.junk (kernelRun2_A c i arg1 harg1 arg2 harg2 arg3 harg3 arg4 harg4 arg5 harg5 hc0 hc1 x0 x1 x2).2.1)

def out3_B_3 (hc0 : ¬cond3_0 i) (hc1 : ¬cond3_1 i)
    (x0 : Vec F S512x1024 .f32) (x1 : Vec F S1x1024 .f32) (x2 : Vec F S1x1024 .f32) (xs0 : Vec F S1024x1024 .f32) : Vec F S1024x1024 .f32 :=
  VO3_3.read (Elt F) (VO3_3.writes (Elt F) VO3_3.junk (kernelRun2_B c i arg1 harg1 arg2 harg2 arg3 harg3 arg4 harg4 arg5 harg5 hc0 hc1 x0 x1 x2 xs0).1)

theorem scover3_B_0 (hc0 : ¬cond3_0 i) (hc1 : ¬cond3_1 i)
    (x0 : Vec F S512x1024 .f32) (x1 : Vec F S1x1024 .f32) (x2 : Vec F S1x1024 .f32) (xs0 : Vec F S1024x1024 .f32) (y : S1024x1024.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1024x1024.size (by sl_kernel_rfl) y

def sout3_B_0 (hc0 : ¬cond3_0 i) (hc1 : ¬cond3_1 i)
    (x0 : Vec F S512x1024 .f32) (x1 : Vec F S1x1024 .f32) (x2 : Vec F S1x1024 .f32) (xs0 : Vec F S1024x1024 .f32) : Vec F S1024x1024 .f32 :=
  VS3_0.read (Elt F) (VS3_0.writes (Elt F) VS3_0.junk (kernelRun2_B c i arg1 harg1 arg2 harg2 arg3 harg3 arg4 harg4 arg5 harg5 hc0 hc1 x0 x1 x2 xs0).2.1)

theorem cover3_C_3 (hc0 : ¬cond3_0 i) (hc1 : cond3_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1024x1024.size (by sl_kernel_rfl) y

def out3_C_3 (hc0 : ¬cond3_0 i) (hc1 : cond3_1 i)
    (x0 : Vec F S512x1024 .f32) (x1 : Vec F S1x1024 .f32) (x2 : Vec F S1x1024 .f32) (xs0 : Vec F S1024x1024 .f32) : Vec F S1024x1024 .f32 :=
  VO3_3.read (Elt F) (VO3_3.writes (Elt F) VO3_3.junk (kernelRun2_C c i arg1 harg1 arg2 harg2 arg3 harg3 arg4 harg4 arg5 harg5 hc0 hc1 x0 x1 x2 xs0).1)

theorem scover3_C_0 (hc0 : ¬cond3_0 i) (hc1 : cond3_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1024x1024.size (by sl_kernel_rfl) y

def sout3_C_0 (hc0 : ¬cond3_0 i) (hc1 : cond3_1 i)
    (x0 : Vec F S512x1024 .f32) (x1 : Vec F S1x1024 .f32) (x2 : Vec F S1x1024 .f32) (xs0 : Vec F S1024x1024 .f32) : Vec F S1024x1024 .f32 :=
  VS3_0.read (Elt F) (VS3_0.writes (Elt F) VS3_0.junk (kernelRun2_C c i arg1 harg1 arg2 harg2 arg3 harg3 arg4 harg4 arg5 harg5 hc0 hc1 x0 x1 x2 xs0).2.1)

theorem ncond2_0_succ_s3 (n : ℕ) (hn : n + 1 < cfg3.N) : ¬cond3_0 (grid3.coords ⟨n + 1, hn⟩) := fun h => by
  have h' := (hcond3_0 ⟨n + 1, hn⟩).mp h
  have hN : n + 1 < 16 := lt_of_lt_of_eq hn (show cfg3.N = 16 from N_3)
  dsimp only at h'; omega

def outsAt3 (c : Dev nD) : (n : ℕ) → n < cfg3.N → Vec F S1024x1024 .f32 × Vec F S1024x1024 .f32
  | 0, hn => (atPt3 (out3_A_3 c) ⟨0, hn⟩ ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), atPt3 (sout3_A_0 c) ⟨0, hn⟩ ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h1 : (n + 1) % 16 = 15 then
      (atPt3 (out3_C_3 c) ⟨n + 1, hn⟩ (ncond2_0_succ_s3 n hn) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, atPt3 (sout3_C_0 c) ⟨n + 1, hn⟩ (ncond2_0_succ_s3 n hn) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
    else
      (atPt3 (out3_B_3 c) ⟨n + 1, hn⟩ (ncond2_0_succ_s3 n hn) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, atPt3 (sout3_B_0 c) ⟨n + 1, hn⟩ (ncond2_0_succ_s3 n hn) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 16 = 0) (h1 : ¬t.val % 16 = 15) :
    outsAt3 V c t.val t.isLt = (atPt3 (out3_A_3 c) t ((hcond3_0 t).mpr h0) (fun h => h1 ((hcond3_1 t).mp h)) (iblk3 V c 0 t) (iblk3 V c 1 t) (iblk3 V c 2 t), atPt3 (sout3_A_0 c) t ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n =>
    exfalso
    have hN : n + 1 < 16 := lt_of_lt_of_eq hn (show cfg3.N = 16 from N_3)
    dsimp only at h0; omega

theorem outsAt3_B (c : Dev nD) (t : Fin cfg3.N) (h0 : ¬t.val % 16 = 0) (h1 : ¬t.val % 16 = 15) :
    outsAt3 V c t.val t.isLt = (atPt3 (out3_B_3 c) t (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, atPt3 (sout3_B_0 c) t (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt3_C (c : Dev nD) (t : Fin cfg3.N) (h0 : ¬t.val % 16 = 0) (h1 : t.val % 16 = 15) :
    outsAt3 V c t.val t.isLt = (atPt3 (out3_C_3 c) t (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, atPt3 (sout3_C_0 c) t (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

abbrev rest3 (c : Dev nD) : sProp 𝕄 :=
  Pipeline.scopedRestBut (Ix := Unit) (Name := ℕ) (U := UR sig nD τ) (Lvl := ℕ) (Val := Elt F) spec3 c [cc3_scratch0]

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem share3 (c : Dev nD) (w : Fin cfg3.W) : (dat3 V c).share w = fullShare :=
  (dat3 V c).share_full (fun _ => rfl) w

theorem owed3 (c : Dev nD) (t : Fin (cfg3.N + 1)) : (dat3 V c).owed t = 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  by_cases h0 : t.val % 16 = 0
  · by_cases h1 : t.val % 16 = 15
    · exfalso; omega
    ·
      rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold atPt3 sout3_A_0; (try dsimp only)
      have hz : t.val = 0 := by omega
      rw [PhiS3_castSucc V c t, PhiS3_zero V c _ _ hz, PhiA3_eq]
      iintro ⟨⟨⟨HS0, HR⟩, Hg⟩, Ho, ⟨%d0, H0⟩, ⟨%d1, H1⟩, ⟨%d2, H2⟩, ⟨%d3, H3⟩⟩
      iapply ((kernelRun2_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · by_cases h1 : t.val % 16 = 15
    ·
      rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [show (dat3 V c).leavesExact 3 t = owns (c : Thread nD τ) (ms3_3 t) fullShare ((dat3 V c).after 3 t) from by
          unfold Dat.leavesExact; rw [liveAt3_3_C t (fun h => h0 ((hcond3_0 t).mp h)) ((hcond3_1 t).mpr h1)], after3_3]
      rw [outsAt3_C V c t h0 h1]
      unfold atPt3 out3_C_3 sout3_C_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold atPt3 sout3_B_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

theorem Phi3_first (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem Phi3_out (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem Phi3_last (c : Dev nD) : (dat3 V c).Φ (Fin.last cfg3.N) ⊢ (Pipeline.ΦA spec3 c : sProp 𝕄) :=
  Phi3_out V c _ (by rw [Fin.val_last]; have : cfg3.N = 16 := N_3; omega)

theorem recorded3 (c : Dev nD) (t : Fin (cfg3.N + 1)) : (dat3 V c).recorded t = Set.univ := rfl

end Cert.Kernel.Hand

end
-- ==== Proof.K.R4Dat.lean ====
import proofs.«158091_j65489661329953_1_alg».proof.Proof.Gen.Kernel.Launch
import proofs.«158091_j65489661329953_1_alg».proof.Proof.Gen.Kernel.Skeleton
import proofs.«158091_j65489661329953_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1024x1024 := Rect.unit (s := S1024x1024) ![0, 0] S1024x1024.size inb_S1024x1024_S1024x1024_0_0

abbrev r4_2 : Rect S1x1 := Rect.unit (s := S1x1) ![0, 0] S1x1.size inb_S1x1_S1x1_0_0

def out4_2 (x0 x1 : Vec F S1024x1024 .f32) : Vec F S1x1 .f32 :=
  View.canon [⟨r4_2, k4_pay1 (View.ld x0 r4_0) (View.ld x1 r4_0)⟩]

theorem cover4_2 (p0 : Vec F S1x1 .f32) (y : S1x1.Idx) :
    ∃ pc ∈ ([⟨r4_2, p0⟩] : List (View.Piece (Elt F) S1x1 .f32)), y ∈ pc.1.set :=
  View.cover_of_tiled [⟨r4_2, p0⟩] S1x1.size (by rfl) y

set_option maxHeartbeats 1000000 in
theorem sound_kernel4 (c : Dev nD) (E : Set ℕ) (i : grid4.Coords) (arg0 : Memref sig .tc .vmem S1024x1024 .f32) (harg0 : arg0.IsWhole) (arg1 : Memref sig .tc .vmem S1024x1024 .f32) (harg1 : arg1.IsWhole)
    (arg2 : Memref sig .tc .vmem S1x1 .f32) (harg2 : arg2.IsWhole)
    (x0 x1 : Vec F S1024x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4_kernel i arg0 harg0 arg1 harg1 arg2 harg2) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).share w = fullShare := by
  unfold Dat.share; split
  · rfl
  · rfl

theorem owed4 (c : Dev nD) (t : Fin (cfg4.N + 1)) : (dat4 V c).owed t = 0 := rfl

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

theorem Phi4_first (c : Dev nD) : (Pipeline.ΦA spec4 c : sProp 𝕄) ⊢ (dat4 V c).Φ 0 := .rfl

theorem Phi4_last (c : Dev nD) : (dat4 V c).Φ (Fin.last cfg4.N) ⊢ (Pipeline.ΦA spec4 c : sProp 𝕄) := .rfl

theorem recorded4 (c : Dev nD) (t : Fin (cfg4.N + 1)) : (dat4 V c).recorded t = Set.univ := rfl

end Cert.Kernel.Hand

end
-- ==== Proof.K.Launch.lean ====
import proofs.«158091_j65489661329953_1_alg».proof.Proof.K.R0Dat
import proofs.«158091_j65489661329953_1_alg».proof.Proof.K.R1Dat
import proofs.«158091_j65489661329953_1_alg».proof.Proof.K.R2Dat
import proofs.«158091_j65489661329953_1_alg».proof.Proof.K.R3Dat
import proofs.«158091_j65489661329953_1_alg».proof.Proof.K.R4Dat
import proofs.«158091_j65489661329953_1_alg».proof.Proof.Gen.Kernel.Launch
import proofs.«158091_j65489661329953_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w

theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev V1 : (c : Dev nD) → (b : Ref sig .tc) → Buf (Elt F) ((c : Thread nD τ).loc b) := fun c b => W1 m c b

theorem hF0 (c : Dev nD) (w : Fin cfg0.W) : (dat0 (V0 m) c).arrAt w cfg0.N = V1 m c (Pipeline.arrRef spec0 w) :=
  (W1_arr m c w).symm

theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (V1 m) c).arrAt w cfg1.N

theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w

theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

abbrev V2 : (c : Dev nD) → (b : Ref sig .tc) → Buf (Elt F) ((c : Thread nD τ).loc b) := fun c b => W2 m c b

theorem hF1 (c : Dev nD) (w : Fin cfg1.W) : (dat1 (V1 m) c).arrAt w cfg1.N = V2 m c (Pipeline.arrRef spec1 w) :=
  (W2_arr m c w).symm

theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

def W3 (c : Dev nD) : Valuation τ sig (Elt F) :=
  Pipeline.withArrays spec2 c (W2 m c) fun w => (dat2 (V2 m) c).arrAt w cfg2.N

theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w

theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb

abbrev V3 : (c : Dev nD) → (b : Ref sig .tc) → Buf (Elt F) ((c : Thread nD τ).loc b) := fun c b => W3 m c b

theorem hF2 (c : Dev nD) (w : Fin cfg2.W) : (dat2 (V2 m) c).arrAt w cfg2.N = V3 m c (Pipeline.arrRef spec2 w) :=
  (W3_arr m c w).symm

theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

def W4 (c : Dev nD) : Valuation τ sig (Elt F) :=
  Pipeline.withArrays spec3 c (W3 m c) fun w => (dat3 (V3 m) c).arrAt w cfg3.N

theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w

theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb

abbrev V4 : (c : Dev nD) → (b : Ref sig .tc) → Buf (Elt F) ((c : Thread nD τ).loc b) := fun c b => W4 m c b

theorem hF3 (c : Dev nD) (w : Fin cfg3.W) : (dat3 (V3 m) c).arrAt w cfg3.N = V4 m c (Pipeline.arrRef spec3 w) :=
  (W4_arr m c w).symm

theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

def W5 (c : Dev nD) : Valuation τ sig (Elt F) :=
  Pipeline.withArrays spec4 c (W4 m c) fun w => (dat4 (V4 m) c).arrAt w cfg4.N

theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w

theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb

abbrev V5 : (c : Dev nD) → (b : Ref sig .tc) → Buf (Elt F) ((c : Thread nD τ).loc b) := fun c b => W5 m c b

theorem hF4 (c : Dev nD) (w : Fin cfg4.W) : (dat4 (V4 m) c).arrAt w cfg4.N = V5 m c (Pipeline.arrRef spec4 w) :=
  (W5_arr m c w).symm

theorem hrest4 (c : Dev nD) : ∀ b, b ∉ Finset.univ.image (Pipeline.arrRef spec4) → V5 m c b = V4 m c b :=
  fun b hb => W5_of_ne m c b fun w e => hb (Finset.mem_image.mpr ⟨w, Finset.mem_univ _, e⟩)

abbrev W6 : Dev nD → Valuation τ sig (Elt F) := fun c => StableHlo.after hostOps5 (W5 m c)

theorem V1_arg1 (c : Dev nD) : V1 m c main_arg1 = m ((c : Thread nD τ).loc main_arg1) :=
  (W1_of_ne m c main_arg1 (by decide)).trans rfl

theorem V2_arg0 (c : Dev nD) : V2 m c main_arg0 = m ((c : Thread nD τ).loc main_arg0) :=
  calc W2 m c (Proc.devRef .tc main_arg0)
    _ = W1 m c (Proc.devRef .tc main_arg0) := W2_of_ne m c main_arg0 (by decide)
    _ = (dat0 (V0 m) c).arrAt 0 cfg0.N := W1_arr m c 0
    _ = V0 m c main_arg0 := ((dat0 (V0 m) c).arrAt_in 0 rfl _).trans (A_eq0 (V0 m) c 0)
    _ = m ((c : Thread nD τ).loc main_arg0) := rfl

theorem V2_v0_0 (c : Dev nD) : V2 m c main_v0_0 = (dat0 (V0 m) c).arrAt 1 cfg0.N :=
  (W2_of_ne m c main_v0_0 (by decide)).trans (W1_arr m c 1)

theorem V2_v0_1 (c : Dev nD) : V2 m c main_v0_1 = (dat0 (V0 m) c).arrAt 2 cfg0.N :=
  (W2_of_ne m c main_v0_1 (by decide)).trans (W1_arr m c 2)

theorem V3_arg1 (c : Dev nD) : V3 m c main_arg1 = m ((c : Thread nD τ).loc main_arg1) :=
  calc W3 m c (Proc.devRef .tc main_arg1)
    _ = W2 m c (Proc.devRef .tc main_arg1) := W3_of_ne m c main_arg1 (by decide)
    _ = (dat1 (V1 m) c).arrAt 0 cfg1.N := W2_arr m c 0
    _ = V1 m c main_arg1 := ((dat1 (V1 m) c).arrAt_in 0 rfl _).trans (A_eq1 (V1 m) c 0)
    _ = m ((c : Thread nD τ).loc main_arg1) := V1_arg1 m c

theorem V3_v1_0 (c : Dev nD) : V3 m c main_v1_0 = (dat1 (V1 m) c).arrAt 1 cfg1.N :=
  (W3_of_ne m c main_v1_0 (by decide)).trans (W2_arr m c 1)

theorem V3_v1_1 (c : Dev nD) : V3 m c main_v1_1 = (dat1 (V1 m) c).arrAt 2 cfg1.N :=
  (W3_of_ne m c main_v1_1 (by decide)).trans (W2_arr m c 2)

theorem V4_v2 (c : Dev nD) : V4 m c main_v2 = (dat2 (V2 m) c).arrAt 3 cfg2.N :=
  (W4_of_ne m c main_v2 (by decide)).trans (W3_arr m c 3)

theorem V4_v3 (c : Dev nD) : V4 m c main_v3 = (dat3 (V3 m) c).arrAt 3 cfg3.N :=
  W4_arr m c 3

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps5 _ hostOps5_writes (by decide)
    _ = W4 m c (Proc.devRef .tc main_arg0) := W5_of_ne m c main_arg0 (by decide)
    _ = W3 m c (Proc.devRef .tc main_arg0) := W4_of_ne m c main_arg0 (by decide)
    _ = (dat2 (V2 m) c).arrAt 0 cfg2.N := W3_arr m c 0
    _ = V2 m c main_arg0 := ((dat2 (V2 m) c).arrAt_in 0 rfl _).trans (A_eq2 (V2 m) c 0)
    _ = m ((c : Thread nD τ).loc main_arg0) := V2_arg0 m c

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps5 _ hostOps5_writes (by decide)
    _ = W4 m c (Proc.devRef .tc main_arg1) := W5_of_ne m c main_arg1 (by decide)
    _ = (dat3 (V3 m) c).arrAt 0 cfg3.N := W4_arr m c 0
    _ = V3 m c main_arg1 := ((dat3 (V3 m) c).arrAt_in 0 rfl _).trans (A_eq3 (V3 m) c 0)
    _ = m ((c : Thread nD τ).loc main_arg1) := V3_arg1 m c

theorem W5_v4 (c : Dev nD) : W5 m c (Proc.devRef .tc main_v4) = (dat4 (V4 m) c).arrAt 2 cfg4.N := W5_arr m c 2

theorem W6_main_v5 (c : Dev nD) : W6 m c (Proc.devRef .tc main_v5)
    = fun i => shapeCast S_ ((dat4 (V4 m) c).arrAt 2 cfg4.N) shapeCasts_S1x1_S_ i := by
  unfold W6
  simp only [StableHlo.after_cons, StableHlo.after_nil]
  rw [StableHlo.reshape_result, W5_v4]
  rfl

def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c

abbrev lvSet : GSem nD τ sig → Finset Unit := fun _ => ∅

abbrev lvOf : GSem nD τ sig → Unit → ℕ := fun _ _ => 0

abbrev rideR (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev toV (W : Dev nD → Valuation τ sig (Elt F)) : (c : Dev nD) → (b : Ref sig .tc) → Buf (Elt F) ((c : Thread nD τ).loc b) := fun c b => W c b

-- One record for every region of @main: what differs between the regions enters as hypotheses.
set_option backward.isDefEq.respectTransparency.types false in
def mkReg (p : Fin 5) (L : Pipeline.LaunchFacts (nD := nD) (τ := τ) cfgs p) (Wa Wb : Dev nD → Valuation τ sig (Elt F))
    (hbody : ∀ c, BodyObligation (pdats m p c) (defs₀ (F := F)) Variants.none () Set.univ)
    (howed : ∀ c t, (pdats m p c).owed t = 0)
    (hshare : ∀ c w, (pdats m p c).share w = fullShare)
    (hA : ∀ c w, (pdats m p c).A w = toV Wa c (Pipeline.arrRef (Pipeline.pin (pcfgs (F := F)) adm p).spec w))
    (hrec : ∀ c, (pdats m p c).recorded 0 = Set.univ)
    (hF : ∀ c w, (pdats m p c).arrAt w (Pipeline.pin (pcfgs (F := F)) adm p).N = toV Wb c (Pipeline.arrRef (Pipeline.pin (pcfgs (F := F)) adm p).spec w))
    (hrest : ∀ c, ∀ b, b ∉ Finset.univ.image (Pipeline.arrRef (Pipeline.pin (pcfgs (F := F)) adm p).spec) → toV Wb c b = toV Wa c b)
    (hfirst : ∀ c, (Pipeline.ΦA (Pipeline.pin (pcfgs (F := F)) adm p).spec c : sProp 𝕄) ⊢ (pdats m p c).Φ 0)
    (hlast : ∀ c, (pdats m p c).Φ (Fin.last _) ⊢ (Pipeline.ΦA (Pipeline.pin (pcfgs (F := F)) adm p).spec c : sProp 𝕄)) :
    Pipeline.RegionSeg (pcfgs (F := F)) adm (pdats m) () defs₀ Variants.none lvSet lvOf p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ lvSet lvOf p howed
  pre c := iprop(StableHlo.held (c : Thread nD τ) (Pipeline.ucRefs τ sig) (Wa c) ∗ rideR c)
  post c := iprop(StableHlo.held (c : Thread nD τ) (Pipeline.ucRefs τ sig) (Wb c) ∗ rideR c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (toV Wa c)
  hentry c := by
    rw [Pipeline.ownSems0_none]
    have hsplit := Pipeline.arrays_of_unscopedBufs (p := p) (pcfgs (F := F)) adm (pdats m) L.win L.arr_whole c
      (hshare c) (toV Wa c) (hA c)
    have hrec := hrec c
    have how : (pdats m p c).owed 0 = 0 := howed c 0
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how]
      icases HO with ⟨%W, HO⟩; iexists W; isplitr
      · ipureintro; exact fun _ _ => Or.inl (hrec ▸ trivial)
      iexact HO
    isplitl [Hp]; · iexact Hp
    iexact Hrest
  hin c := by
    refine BIBase.Entails.trans ?_ (hfirst c)
    unfold Pipeline.ΦA
    iintro ⟨Hp, -, Hr⟩
    isplitl [Hr]; · iexact Hr
    iexact Hp
  hout c := by
    rw [Pipeline.ownSems0_none]
    refine BIBase.Entails.trans (hlast c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) (hshare c)
      (toV Wa c) (toV Wb c) ((pdats m p c).arrAt · (Pipeline.pin (pcfgs (F := F)) adm p).N) (hF c) (hrest c)
    have how : (pdats m p c).owed (Fin.last (Pipeline.pin (pcfgs (F := F)) adm p).N) = 0 := howed c _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how]
    icases HO with ⟨%W, -, HO⟩; iexists W; iexact HO

def reg0 := mkReg m 0 launch0 (W0 m) (W1 m) (body_obligation0 (V0 m)) (owed0 (V0 m)) (share0 (V0 m)) (A_eq0 (V0 m)) (fun c => recorded0 (V0 m) c 0) (hF0 m) (hrest0 m) (Phi0_first (V0 m)) (Phi0_last (V0 m))

def reg1 := mkReg m 1 launch1 (W1 m) (W2 m) (body_obligation1 (V1 m)) (owed1 (V1 m)) (share1 (V1 m)) (A_eq1 (V1 m)) (fun c => recorded1 (V1 m) c 0) (hF1 m) (hrest1 m) (Phi1_first (V1 m)) (Phi1_last (V1 m))

def reg2 := mkReg m 2 launch2 (W2 m) (W3 m) (body_obligation2 (V2 m)) (owed2 (V2 m)) (share2 (V2 m)) (A_eq2 (V2 m)) (fun c => recorded2 (V2 m) c 0) (hF2 m) (hrest2 m) (Phi2_first (V2 m)) (Phi2_last (V2 m))

def reg3 := mkReg m 3 launch3 (W3 m) (W4 m) (body_obligation3 (V3 m)) (owed3 (V3 m)) (share3 (V3 m)) (A_eq3 (V3 m)) (fun c => recorded3 (V3 m) c 0) (hF3 m) (hrest3 m) (Phi3_first (V3 m)) (Phi3_last (V3 m))

def reg4 := mkReg m 4 launch4 (W4 m) (W5 m) (body_obligation4 (V4 m)) (owed4 (V4 m)) (share4 (V4 m)) (A_eq4 (V4 m)) (fun c => recorded4 (V4 m) c 0) (hF4 m) (hrest4 m) (Phi4_first (V4 m)) (Phi4_last (V4 m))

abbrev hseg5 : Pipeline.HostSeg (Name := ℕ) (U := UR sig nD τ) (pcfgs (F := F)) defs₀ Variants.none lvSet lvOf :=
  Pipeline.HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (W5 m) rideR

abbrev segs : List (Pipeline.Seg (pcfgs (F := F)) adm (pdats m) () defs₀ Variants.none lvSet lvOf) :=
  [ .region (reg0 m), .region (reg1 m), .region (reg2 m), .region (reg3 m), .region (reg4 m), .host (hseg5 m) ]

theorem main_run (c : Dev nD) : main (F := F) c = Pipeline.Seg.run (segs m) :=
  main_segs adm (pdats m) () Variants.none lvSet lvOf (hseg5 m) (reg0 m) (reg1 m) (reg2 m) (reg3 m) (reg4 m) rfl c

abbrev lastT (c : Dev nD) : sProp 𝕄 := iprop(StableHlo.held (c : Thread nD τ) (Pipeline.ucRefs τ sig) (W6 m c) ∗ ∃ r, prngReg c r)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ Variants.none lvSet lvOf m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rideR c)) (Tₙ := lastT m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ rideR c)
          ⊢ (iprop(lastT m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach lvSet lvOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c =>
    ⟨(hr c _ (mem_uc main_arg0 (by decide))).trans (W6_main_arg0 m c),
     (hr c _ (mem_uc main_arg1 (by decide))).trans (W6_main_arg1 m c)⟩) (run_all m ρ)

end Cert.Kernel.Hand

end
-- ==== Proof.KI.R0Runs.lean ====
import proofs.«158091_j65489661329953_1_alg».proof.Proof.Gen.KernelIdeal.Launch
import proofs.«158091_j65489661329953_1_alg».proof.Proof.Gen.KernelIdeal.Skeleton
import proofs.«158091_j65489661329953_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1

theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel

theorem idleAt0_1 : ∀ t : Fin cfg0.N, ¬cond0_1 (grid0.coords t) → cfg0.idle 1 (grid0.coords t) = true := by decide +kernel

theorem noFlush0_1 : ∀ t : Fin cfg0.N, ¬cond0_1 (grid0.coords t) → (cfg0.win 1).flush t = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_1 : ∀ t : Fin cfg0.N, cond0_1 (grid0.coords t) → cfg0.idle 1 (grid0.coords t) = false := by decide +kernel

theorem liveAt0_2 : ∀ t : Fin cfg0.N, cond0_1 (grid0.coords t) → cfg0.idle 2 (grid0.coords t) = false := by decide +kernel

abbrev VO0_1 : View sig .tc .vmem S1x1024 .f32 := (Memref.whole cc0_stg1_0 : Memref sig .tc .vmem S1x1024 .f32).view

abbrev VO0_2 : View sig .tc .vmem S1x1024 .f32 := (Memref.whole cc0_stg2_0 : Memref sig .tc .vmem S1x1024 .f32).view

abbrev ms0_0 (t : Fin cfg0.N) : Memref sig .tc .vmem S1024x1024 .f32 := win0_0.stage (cfg0.slots t 0)

abbrev hs0_0 (t : Fin cfg0.N) : (ms0_0 t).IsWhole := hstage0_0 ((cfg0.slots t 0).cast nbuf0_0)

abbrev ms0_1 (t : Fin cfg0.N) : Memref sig .tc .vmem S1x1024 .f32 := win0_1.stage (cfg0.slots t 1)

abbrev hs0_1 (t : Fin cfg0.N) : (ms0_1 t).IsWhole := hstage0_1 ((cfg0.slots t 1).cast nbuf0_1)

abbrev ms0_2 (t : Fin cfg0.N) : Memref sig .tc .vmem S1x1024 .f32 := win0_2.stage (cfg0.slots t 2)

abbrev hs0_2 (t : Fin cfg0.N) : (ms0_2 t).IsWhole := hstage0_2 ((cfg0.slots t 2).cast nbuf0_2)

abbrev scM0_0 : Memref sig .tc .vmem S1x1024 .f32 := Memref.whole cc0_scratch0

abbrev scM0_1 : Memref sig .tc .vmem S1x1024 .f32 := Memref.whole cc0_scratch1

abbrev VS0_0 : View sig .tc .vmem S1x1024 .f32 := scM0_0.view

abbrev VS0_1 : View sig .tc .vmem S1x1024 .f32 := scM0_1.view

-- A function of the grid coordinates and the body's five operands, taken at one grid point.
abbrev atPt0 {α : grid0.Coords → Sort _} (f : ∀ (i : grid0.Coords) (a1 : Memref sig .tc .vmem S1024x1024 .f32), a1.IsWhole → ∀ a2 : Memref sig .tc .vmem S1x1024 .f32, a2.IsWhole → ∀ a3 : Memref sig .tc .vmem S1x1024 .f32, a3.IsWhole → ∀ a4 : Memref sig .tc .vmem S1x1024 .f32, a4.IsWhole → ∀ a5 : Memref sig .tc .vmem S1x1024 .f32, a5.IsWhole → α i) (t : Fin cfg0.N) : α (grid0.coords t) :=
  f (grid0.coords t) (ms0_0 t) (hs0_0 t) (ms0_1 t) (hs0_1 t) (ms0_2 t) (hs0_2 t) scM0_0 (Memref.isWhole_whole _) scM0_1 (Memref.isWhole_whole _)

def rest0 (c : Dev nD) : sProp 𝕄 :=
  Pipeline.scopedRestBut (Ix := Unit) (Name := ℕ) (U := UR sig nD τ) (Lvl := ℕ) (Val := Elt F) spec0 c [cc0_scratch0, cc0_scratch1]

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ rest0 (F := F) c) :=
  Pipeline.scopedRest_split_of_list spec0 c [cc0_scratch0, cc0_scratch1] (by decide) (by decide)

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 (F := F) c) ∗ (∃ r, prngReg c r)) := by
  unfold Pipeline.ΦA; rw [scopedRest0_split]; simp only [scM0_0, scM0_1, owns_whole]; try rfl

end Cert.KernelIdeal.Hand

end
-- ==== Proof.KI.R0RunA.lean ====
import proofs.«158091_j65489661329953_1_alg».proof.Proof.KI.R0Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i)
    (x0 : Vec F S1024x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, fun xi1 xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.R0RunB.lean ====
import proofs.«158091_j65489661329953_1_alg».proof.Proof.KI.R0Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i)
    (x0 : Vec F S1024x1024 .f32) (xs0 : Vec F S1x1024 .f32) (xs1 : Vec F S1x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, fun xi1 xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

end Cert.KernelIdeal.Hand

end
-- ==== Proof.KI.R0RunC.lean ====
import proofs.«158091_j65489661329953_1_alg».proof.Proof.KI.R0Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 : Vec F S1024x1024 .f32) (xs0 : Vec F S1x1024 .f32) (xs1 : Vec F S1x1024 .f32) :
    Σ' (L1 : List (View.Piece (Elt F) S1x1024 .f32)), Σ' (L2 : List (View.Piece (Elt F) S1x1024 .f32)), Σ' (LS0 : List (View.Piece (Elt F) S1x1024 .f32)), { LS1 : List (View.Piece (Elt F) S1x1024 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0_kernel i arg1 harg1 arg2 harg2 arg3 harg3 arg4 harg4 arg5 harg5) K } := by
  refine ⟨?_, ?_, ?_, ?_, fun E K => ?run⟩
  case run =>
    simp only [cc0_kernel_eq_skeleton]; unfold cc0_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.R0Dat.lean ====
import proofs.«158091_j65489661329953_1_alg».proof.Proof.KI.R0Runs
import proofs.«158091_j65489661329953_1_alg».proof.Proof.KI.R0RunA
import proofs.«158091_j65489661329953_1_alg».proof.Proof.KI.R0RunB
import proofs.«158091_j65489661329953_1_alg».proof.Proof.KI.R0RunC
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)

theorem scover0_A_0 (hc0 : cond0_0 i) (hc1 : ¬cond0_1 i)
    (x0 : Vec F S1024x1024 .f32) (y : S1x1024.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x1024.size (by sl_kernel_rfl) y

def sout0_A_0 (hc0 : cond0_0 i) (hc1 : ¬cond0_1 i)
    (x0 : Vec F S1024x1024 .f32) : Vec F S1x1024 .f32 :=
  VS0_0.read (Elt F) (VS0_0.writes (Elt F) VS0_0.junk (kernelRun0_A c i arg1 harg1 arg2 harg2 arg3 harg3 arg4 harg4 arg5 harg5 hc0 hc1 x0).1)

theorem scover0_A_1 (hc0 : cond0_0 i) (hc1 : ¬cond0_1 i)
    (x0 : Vec F S1024x1024 .f32) (y : S1x1024.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x1024.size (by sl_kernel_rfl) y

def sout0_A_1 (hc0 : cond0_0 i) (hc1 : ¬cond0_1 i)
    (x0 : Vec F S1024x1024 .f32) : Vec F S1x1024 .f32 :=
  VS0_1.read (Elt F) (VS0_1.writes (Elt F) VS0_1.junk (kernelRun0_A c i arg1 harg1 arg2 harg2 arg3 harg3 arg4 harg4 arg5 harg5 hc0 hc1 x0).2.1)

theorem scover0_B_0 (hc0 : ¬cond0_0 i) (hc1 : ¬cond0_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x1024.size (by sl_kernel_rfl) y

def sout0_B_0 (hc0 : ¬cond0_0 i) (hc1 : ¬cond0_1 i)
    (x0 : Vec F S1024x1024 .f32) (xs0 : Vec F S1x1024 .f32) (xs1 : Vec F S1x1024 .f32) : Vec F S1x1024 .f32 :=
  VS0_0.read (Elt F) (VS0_0.writes (Elt F) VS0_0.junk (kernelRun0_B c i arg1 harg1 arg2 harg2 arg3 harg3 arg4 harg4 arg5 harg5 hc0 hc1 x0 xs0 xs1).1)

theorem scover0_B_1 (hc0 : ¬cond0_0 i) (hc1 : ¬cond0_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x1024.size (by sl_kernel_rfl) y

def sout0_B_1 (hc0 : ¬cond0_0 i) (hc1 : ¬cond0_1 i)
    (x0 : Vec F S1024x1024 .f32) (xs0 : Vec F S1x1024 .f32) (xs1 : Vec F S1x1024 .f32) : Vec F S1x1024 .f32 :=
  VS0_1.read (Elt F) (VS0_1.writes (Elt F) VS0_1.junk (kernelRun0_B c i arg1 harg1 arg2 harg2 arg3 harg3 arg4 harg4 arg5 harg5 hc0 hc1 x0 xs0 xs1).2.1)

theorem cover0_C_1 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1024.size (by sl_kernel_rfl) y

def out0_C_1 (hc0 : ¬cond0_0 i) (hc1 : cond0_1 i)
    (x0 : Vec F S1024x1024 .f32) (xs0 : Vec F S1x1024 .f32) (xs1 : Vec F S1x1024 .f32) : Vec F S1x1024 .f32 :=
  VO0_1.read (Elt F) (VO0_1.writes (Elt F) VO0_1.junk (kernelRun0_C c i arg1 harg1 arg2 harg2 arg3 harg3 arg4 harg4 arg5 harg5 hc0 hc1 x0 xs0 xs1).1)

theorem cover0_C_2 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1024.size (by sl_kernel_rfl) y

def out0_C_2 (hc0 : ¬cond0_0 i) (hc1 : cond0_1 i)
    (x0 : Vec F S1024x1024 .f32) (xs0 : Vec F S1x1024 .f32) (xs1 : Vec F S1x1024 .f32) : Vec F S1x1024 .f32 :=
  VO0_2.read (Elt F) (VO0_2.writes (Elt F) VO0_2.junk (kernelRun0_C c i arg1 harg1 arg2 harg2 arg3 harg3 arg4 harg4 arg5 harg5 hc0 hc1 x0 xs0 xs1).2.1)

theorem scover0_C_0 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1024.size (by sl_kernel_rfl) y

def sout0_C_0 (hc0 : ¬cond0_0 i) (hc1 : cond0_1 i)
    (x0 : Vec F S1024x1024 .f32) (xs0 : Vec F S1x1024 .f32) (xs1 : Vec F S1x1024 .f32) : Vec F S1x1024 .f32 :=
  VS0_0.read (Elt F) (VS0_0.writes (Elt F) VS0_0.junk (kernelRun0_C c i arg1 harg1 arg2 harg2 arg3 harg3 arg4 harg4 arg5 harg5 hc0 hc1 x0 xs0 xs1).2.2.1)

theorem scover0_C_1 (hc0 : ¬cond0_0 i) (hc1 : cond0_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1024.size (by sl_kernel_rfl) y

def sout0_C_1 (hc0 : ¬cond0_0 i) (hc1 : cond0_1 i)
    (x0 : Vec F S1024x1024 .f32) (xs0 : Vec F S1x1024 .f32) (xs1 : Vec F S1x1024 .f32) : Vec F S1x1024 .f32 :=
  VS0_1.read (Elt F) (VS0_1.writes (Elt F) VS0_1.junk (kernelRun0_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

def junk0 : Vec F S1x1024 .f32 := VO0_1.read (Elt F) VO0_1.junk

theorem ncond0_0_succ (n : ℕ) (hn : n + 1 < cfg0.N) : ¬cond0_0 (grid0.coords ⟨n + 1, hn⟩) := fun h => by
  have hN : n + 1 < 8 := lt_of_lt_of_eq hn (show cfg0.N = 8 from N_0)
  have h' := (hcond0_0 ⟨n + 1, hn⟩).mp h
  dsimp only at h'; omega

def outsAt0 (c : Dev nD) : (n : ℕ) → n < cfg0.N → Vec F S1x1024 .f32 × Vec F S1x1024 .f32 × Vec F S1x1024 .f32 × Vec F S1x1024 .f32
  | 0, hn => (junk0, junk0, atPt0 (sout0_A_0 c) ⟨0, hn⟩ ((hcond0_0 ⟨0, hn⟩).mpr (Nat.zero_mod _)) (fun h => (fun h => by (try dsimp only at h); omega) ((hcond0_1 ⟨0, hn⟩).mp h)) (iblk0 V c 0 ⟨0, hn⟩), atPt0 (sout0_A_1 c) ⟨0, hn⟩ ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h1 : (n + 1) % 8 = 7 then
      (atPt0 (out0_C_1 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, atPt0 (out0_C_2 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, atPt0 (sout0_C_0 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2, atPt0 (sout0_C_1 c) ⟨n + 1, hn⟩ (ncond0_0_succ n hn) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
    else
      (junk0, junk0, atPt0 (sout0_B_0 c) ⟨n + 1, hn⟩ (ncond0_0_succ n hn) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2, atPt0 (sout0_B_1 c) ⟨n + 1, hn⟩ (ncond0_0_succ n hn) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 V c t.val t.isLt = (junk0, junk0, atPt0 (sout0_A_0 c) t ((hcond0_0 t).mpr h0) (fun h => h1 ((hcond0_1 t).mp h)) (iblk0 V c 0 t), atPt0 (sout0_A_1 c) t ((hcond0_0 t).mpr h0) (fun h => h1 ((hcond0_1 t).mp h)) (iblk0 V c 0 t)) := by
  obtain ⟨n, hn⟩ := t
  cases n with
  | zero => exact rfl
  | succ n => exact (by exfalso; have hN : n + 1 < 8 := lt_of_lt_of_eq hn (show cfg0.N = 8 from N_0); (try dsimp only at h0); omega)

theorem outsAt0_B (c : Dev nD) (t : Fin cfg0.N) (h0 : ¬t.val % 8 = 0) (h1 : ¬t.val % 8 = 7) :
    outsAt0 V c t.val t.isLt = (junk0, junk0, atPt0 (sout0_B_0 c) t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (sout0_B_1 c) t (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 8 = 0) (h1 : t.val % 8 = 7) :
    outsAt0 V c t.val t.isLt = (atPt0 (out0_C_1 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (out0_C_2 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (sout0_C_0 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, atPt0 (sout0_C_1 c) t (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.1) ∗ owns (c : Thread nD τ) scM0_1 fullShare ((outsAt0 V c n hn).2.2.2)) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.1) ∗ owns (c : Thread nD τ) scM0_1 fullShare ((outsAt0 V c (n - 1) (by omega)).2.2.2)) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w

theorem owed0 (c : Dev nD) (t : Fin (cfg0.N + 1)) : (dat0 V c).owed t = 0 := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]

theorem after0_1 (c : Dev nD) (t : Fin cfg0.N) : (dat0 V c).after 1 t = (outsAt0 V c t.val t.isLt).1 := by dsimp only [dat0]

theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  by_cases h0 : t.val % 8 = 0
  · have h1 : ¬t.val % 8 = 7 := by omega
    have hz : t.val = 0 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    rw [outsAt0_A V c t h0 h1]
    unfold atPt0 sout0_A_0 sout0_A_1; (try dsimp only)
    rw [PhiS0_castSucc V c t, PhiS0_zero V c _ _ hz, PhiA0_eq]
    iintro ⟨⟨⟨⟨HS0, HS1⟩, Hr⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _)
        iexact Hr
      iexact Hg
    isplitl [Ho]; · iexact Ho
    isplitl [H0]; · iexact H0
    isplitl [H1]; · iexists _; iexact H1
    iexists _; iexact H2
  · have hz : t.val ≠ 0 := by omega
    by_cases h1 : t.val % 8 = 7
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t ((hcond0_1 t).mpr h1)], after0_1]
      rw [show (dat0 V c).leavesExact 2 t = owns (c : Thread nD τ) (ms0_2 t) fullShare ((dat0 V c).after 2 t) from by
      unfold Dat.leavesExact; rw [liveAt0_2 t ((hcond0_1 t).mpr h1)], after0_2]
      rw [outsAt0_C V c t h0 h1]
      unfold atPt0 out0_C_1 out0_C_2 sout0_C_0 sout0_C_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold atPt0 sout0_B_0 sout0_B_1; (try dsimp only)
      rw [PhiS0_castSucc V c t, PhiS0_pos V c _ _ hz]
      iintro ⟨⟨⟨⟨HS0, HS1⟩, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _)
          iexact Hr
        iexact Hg
      isplitl [Ho]; · iexact Ho
      isplitl [H0]; · iexact H0
      isplitl [H1]; · iexists _; iexact H1
      iexists _; iexact H2

theorem body_obligation0 (c : Dev nD) : BodyObligation (dat0 (F := F) V c) (defs₀ (F := F)) Variants.none () Set.univ := fun t => by
  rw [bigSep_W0, bigSep_W0]
  exact sound_body0 V c t

theorem Phi0_first (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

theorem Phi0_out (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem Phi0_last (c : Dev nD) : (dat0 V c).Φ (Fin.last cfg0.N) ⊢ (Pipeline.ΦA spec0 c : sProp 𝕄) :=
  Phi0_out V c _ (by rw [Fin.val_last]; have : cfg0.N = 8 := N_0; omega)

theorem recorded0 (c : Dev nD) (t : Fin (cfg0.N + 1)) : (dat0 V c).recorded t = Set.univ := rfl

end Cert.KernelIdeal.Hand

end
-- ==== Proof.KI.R1Runs.lean ====
import proofs.«158091_j65489661329953_1_alg».proof.Proof.Gen.KernelIdeal.Launch
import proofs.«158091_j65489661329953_1_alg».proof.Proof.Gen.KernelIdeal.Skeleton
import proofs.«158091_j65489661329953_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel

theorem idleAt1_1 : ∀ t : Fin cfg1.N, ¬cond1_1 (grid1.coords t) → cfg1.idle 1 (grid1.coords t) = true := by decide +kernel

theorem noFlush1_1 : ∀ t : Fin cfg1.N, ¬cond1_1 (grid1.coords t) → (cfg1.win 1).flush t = false := by decide +kernel

theorem idleAt1_2 : ∀ t : Fin cfg1.N, ¬cond1_1 (grid1.coords t) → cfg1.idle 2 (grid1.coords t) = true := by decide +kernel

theorem noFlush1_2 : ∀ t : Fin cfg1.N, ¬cond1_1 (grid1.coords t) → (cfg1.win 2).flush t = false := by decide +kernel

theorem liveAt1_1 : ∀ t : Fin cfg1.N, cond1_1 (grid1.coords t) → cfg1.idle 1 (grid1.coords t) = false := by decide +kernel

theorem liveAt1_2 : ∀ t : Fin cfg1.N, cond1_1 (grid1.coords t) → cfg1.idle 2 (grid1.coords t) = false := by decide +kernel

abbrev VO1_1 : View sig .tc .vmem S1x1024 .f32 := (Memref.whole cc1_stg1_0 : Memref sig .tc .vmem S1x1024 .f32).view

abbrev VO1_2 : View sig .tc .vmem S1x1024 .f32 := (Memref.whole cc1_stg2_0 : Memref sig .tc .vmem S1x1024 .f32).view

abbrev ms1_0 (t : Fin cfg1.N) : Memref sig .tc .vmem S1024x1024 .f32 := win1_0.stage (cfg1.slots t 0)

abbrev hs1_0 (t : Fin cfg1.N) : (ms1_0 t).IsWhole := hstage1_0 ((cfg1.slots t 0).cast nbuf1_0)

abbrev ms1_1 (t : Fin cfg1.N) : Memref sig .tc .vmem S1x1024 .f32 := win1_1.stage (cfg1.slots t 1)

abbrev hs1_1 (t : Fin cfg1.N) : (ms1_1 t).IsWhole := hstage1_1 ((cfg1.slots t 1).cast nbuf1_1)

abbrev ms1_2 (t : Fin cfg1.N) : Memref sig .tc .vmem S1x1024 .f32 := win1_2.stage (cfg1.slots t 2)

abbrev hs1_2 (t : Fin cfg1.N) : (ms1_2 t).IsWhole := hstage1_2 ((cfg1.slots t 2).cast nbuf1_2)

abbrev scM1_0 : Memref sig .tc .vmem S1x1024 .f32 := Memref.whole cc1_scratch0

abbrev scM1_1 : Memref sig .tc .vmem S1x1024 .f32 := Memref.whole cc1_scratch1

abbrev VS1_0 : View sig .tc .vmem S1x1024 .f32 := scM1_0.view

abbrev VS1_1 : View sig .tc .vmem S1x1024 .f32 := scM1_1.view

-- A function of the grid coordinates and the body's five operands, taken at one grid point.
abbrev atPt1 {α : grid1.Coords → Sort _} (f : ∀ (i : grid1.Coords) (a1 : Memref sig .tc .vmem S1024x1024 .f32), a1.IsWhole → ∀ a2 : Memref sig .tc .vmem S1x1024 .f32, a2.IsWhole → ∀ a3 : Memref sig .tc .vmem S1x1024 .f32, a3.IsWhole → ∀ a4 : Memref sig .tc .vmem S1x1024 .f32, a4.IsWhole → ∀ a5 : Memref sig .tc .vmem S1x1024 .f32, a5.IsWhole → α i) (t : Fin cfg1.N) : α (grid1.coords t) :=
  f (grid1.coords t) (ms1_0 t) (hs1_0 t) (ms1_1 t) (hs1_1 t) (ms1_2 t) (hs1_2 t) scM1_0 (Memref.isWhole_whole _) scM1_1 (Memref.isWhole_whole _)

def rest1 (c : Dev nD) : sProp 𝕄 :=
  Pipeline.scopedRestBut (Ix := Unit) (Name := ℕ) (U := UR sig nD τ) (Lvl := ℕ) (Val := Elt F) spec1 c [cc1_scratch0, cc1_scratch1]

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ rest1 (F := F) c) :=
  Pipeline.scopedRest_split_of_list spec1 c [cc1_scratch0, cc1_scratch1] (by decide) (by decide)

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

end Cert.KernelIdeal.Hand

end
-- ==== Proof.KI.R1Dat.lean ====
import proofs.«158091_j65489661329953_1_alg».proof.Proof.KI.R1Runs
import proofs.«158091_j65489661329953_1_alg».proof.Proof.KI.R0RunA
import proofs.«158091_j65489661329953_1_alg».proof.Proof.KI.R0RunB
import proofs.«158091_j65489661329953_1_alg».proof.Proof.KI.R0RunC
import Idealize.ShloMosaic.Lib.Ring

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)

theorem scover1_A_0 (hc0 : cond1_0 i) (hc1 : ¬cond1_1 i)
    (x0 : Vec F S1024x1024 .f32) (y : S1x1024.Idx) :
    ∃ pc ∈ (kernelRun0_A c i arg1 harg1 arg2 harg2 arg3 harg3 arg4 harg4 arg5 harg5 hc0 hc1 x0).1, y ∈ pc.1.set :=
  View.cover_of_tiledL (kernelRun0_A c i arg1 harg1 arg2 harg2 arg3 harg3 arg4 harg4 arg5 harg5 hc0 hc1 x0).1 S1x1024.size (by sl_kernel_rfl) y

def sout1_A_0 (hc0 : cond1_0 i) (hc1 : ¬cond1_1 i)
    (x0 : Vec F S1024x1024 .f32) : Vec F S1x1024 .f32 :=
  VS1_0.read (Elt F) (VS1_0.writes (Elt F) VS1_0.junk (kernelRun0_A c i arg1 harg1 arg2 harg2 arg3 harg3 arg4 harg4 arg5 harg5 hc0 hc1 x0).1)

theorem scover1_A_1 (hc0 : cond1_0 i) (hc1 : ¬cond1_1 i)
    (x0 : Vec F S1024x1024 .f32) (y : S1x1024.Idx) :
    ∃ pc ∈ (kernelRun0_A c i arg1 harg1 arg2 harg2 arg3 harg3 arg4 harg4 arg5 harg5 hc0 hc1 x0).2.1, y ∈ pc.1.set :=
  View.cover_of_tiledL (kernelRun0_A c i arg1 harg1 arg2 harg2 arg3 harg3 arg4 harg4 arg5 harg5 hc0 hc1 x0).2.1 S1x1024.size (by sl_kernel_rfl) y

def sout1_A_1 (hc0 : cond1_0 i) (hc1 : ¬cond1_1 i)
    (x0 : Vec F S1024x1024 .f32) : Vec F S1x1024 .f32 :=
  VS1_1.read (Elt F) (VS1_1.writes (Elt F) VS1_1.junk (kernelRun0_A c i arg1 harg1 arg2 harg2 arg3 harg3 arg4 harg4 arg5 harg5 hc0 hc1 x0).2.1)

theorem scover1_B_0 (hc0 : ¬cond1_0 i) (hc1 : ¬cond1_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).1, y ∈ pc.1.set :=
  View.cover_of_tiledL (kernelRun0_B c i arg1 harg1 arg2 harg2 arg3 harg3 arg4 harg4 arg5 harg5 hc0 hc1 x0 xs0 xs1).1 S1x1024.size (by sl_kernel_rfl) y

def sout1_B_0 (hc0 : ¬cond1_0 i) (hc1 : ¬cond1_1 i)
    (x0 : Vec F S1024x1024 .f32) (xs0 : Vec F S1x1024 .f32) (xs1 : Vec F S1x1024 .f32) : Vec F S1x1024 .f32 :=
  VS1_0.read (Elt F) (VS1_0.writes (Elt F) VS1_0.junk (kernelRun0_B c i arg1 harg1 arg2 harg2 arg3 harg3 arg4 harg4 arg5 harg5 hc0 hc1 x0 xs0 xs1).1)

theorem scover1_B_1 (hc0 : ¬cond1_0 i) (hc1 : ¬cond1_1 i)
    (x0 : Vec F S1024x1024 .f32) (xs0 : Vec F S1x1024 .f32) (xs1 : Vec F S1x1024 .f32) (y : S1x1024.Idx) :
    ∃ pc ∈ (kernelRun0_B c i arg1 harg1 arg2 harg2 arg3 harg3 arg4 harg4 arg5 harg5 hc0 hc1 x0 xs0 xs1).2.1, y ∈ pc.1.set :=
  View.cover_of_tiledL (kernelRun0_B c i arg1 harg1 arg2 harg2 arg3 harg3 arg4 harg4 arg5 harg5 hc0 hc1 x0 xs0 xs1).2.1 S1x1024.size (by sl_kernel_rfl) y

def sout1_B_1 (hc0 : ¬cond1_0 i) (hc1 : ¬cond1_1 i)
    (x0 : Vec F S1024x1024 .f32) (xs0 : Vec F S1x1024 .f32) (xs1 : Vec F S1x1024 .f32) : Vec F S1x1024 .f32 :=
  VS1_1.read (Elt F) (VS1_1.writes (Elt F) VS1_1.junk (kernelRun0_B c i arg1 harg1 arg2 harg2 arg3 harg3 arg4 harg4 arg5 harg5 hc0 hc1 x0 xs0 xs1).2.1)

theorem cover1_C_1 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1024.size (by sl_kernel_rfl) y

def out1_C_1 (hc0 : ¬cond1_0 i) (hc1 : cond1_1 i)
    (x0 : Vec F S1024x1024 .f32) (xs0 : Vec F S1x1024 .f32) (xs1 : Vec F S1x1024 .f32) : Vec F S1x1024 .f32 :=
  VO1_1.read (Elt F) (VO1_1.writes (Elt F) VO1_1.junk (kernelRun0_C c i arg1 harg1 arg2 harg2 arg3 harg3 arg4 harg4 arg5 harg5 hc0 hc1 x0 xs0 xs1).1)

theorem cover1_C_2 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1024.size (by sl_kernel_rfl) y

def out1_C_2 (hc0 : ¬cond1_0 i) (hc1 : cond1_1 i)
    (x0 : Vec F S1024x1024 .f32) (xs0 : Vec F S1x1024 .f32) (xs1 : Vec F S1x1024 .f32) : Vec F S1x1024 .f32 :=
  VO1_2.read (Elt F) (VO1_2.writes (Elt F) VO1_2.junk (kernelRun0_C c i arg1 harg1 arg2 harg2 arg3 harg3 arg4 harg4 arg5 harg5 hc0 hc1 x0 xs0 xs1).2.1)

theorem scover1_C_0 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1024.size (by sl_kernel_rfl) y

def sout1_C_0 (hc0 : ¬cond1_0 i) (hc1 : cond1_1 i)
    (x0 : Vec F S1024x1024 .f32) (xs0 : Vec F S1x1024 .f32) (xs1 : Vec F S1x1024 .f32) : Vec F S1x1024 .f32 :=
  VS1_0.read (Elt F) (VS1_0.writes (Elt F) VS1_0.junk (kernelRun0_C c i arg1 harg1 arg2 harg2 arg3 harg3 arg4 harg4 arg5 harg5 hc0 hc1 x0 xs0 xs1).2.2.1)

theorem scover1_C_1 (hc0 : ¬cond1_0 i) (hc1 : cond1_1 i)
    (x0 : Vec F S1024x1024 .f32) (xs0 : Vec F S1x1024 .f32) (xs1 : Vec F S1x1024 .f32) (y : S1x1024.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1024.size (by sl_kernel_rfl) y

def sout1_C_1 (hc0 : ¬cond1_0 i) (hc1 : cond1_1 i)
    (x0 : Vec F S1024x1024 .f32) (xs0 : Vec F S1x1024 .f32) (xs1 : Vec F S1x1024 .f32) : Vec F S1x1024 .f32 :=
  VS1_1.read (Elt F) (VS1_1.writes (Elt F) VS1_1.junk (kernelRun0_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

def junk1 : Vec F S1x1024 .f32 := VO1_1.read (Elt F) VO1_1.junk

theorem ncond1_0_succ (n : ℕ) (hn : n + 1 < cfg1.N) : ¬cond1_0 (grid1.coords ⟨n + 1, hn⟩) := fun h => by
  have hN : n + 1 < 8 := lt_of_lt_of_eq hn (show cfg1.N = 8 from N_1)
  have h' := (hcond1_0 ⟨n + 1, hn⟩).mp h
  dsimp only at h'; omega

def outsAt1 (c : Dev nD) : (n : ℕ) → n < cfg1.N → Vec F S1x1024 .f32 × Vec F S1x1024 .f32 × Vec F S1x1024 .f32 × Vec F S1x1024 .f32
  | 0, hn => (junk1, junk1, atPt1 (sout1_A_0 c) ⟨0, hn⟩ ((hcond1_0 ⟨0, hn⟩).mpr (Nat.zero_mod _)) (fun h => (fun h => by (try dsimp only at h); omega) ((hcond1_1 ⟨0, hn⟩).mp h)) (iblk1 V c 0 ⟨0, hn⟩), atPt1 (sout1_A_1 c) ⟨0, hn⟩ ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 8 = 7 then
      (atPt1 (out1_C_1 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, atPt1 (out1_C_2 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, atPt1 (sout1_C_0 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, atPt1 (sout1_C_1 c) ⟨n + 1, hn⟩ (ncond1_0_succ n hn) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
    else
      (junk1, junk1, atPt1 (sout1_B_0 c) ⟨n + 1, hn⟩ (ncond1_0_succ n hn) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, atPt1 (sout1_B_1 c) ⟨n + 1, hn⟩ (ncond1_0_succ n hn) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 8 = 0) (h1 : ¬t.val % 8 = 7) :
    outsAt1 V c t.val t.isLt = (junk1, junk1, atPt1 (sout1_A_0 c) t ((hcond1_0 t).mpr h0) (fun h => h1 ((hcond1_1 t).mp h)) (iblk1 V c 0 t), atPt1 (sout1_A_1 c) t ((hcond1_0 t).mpr h0) (fun h => h1 ((hcond1_1 t).mp h)) (iblk1 V c 0 t)) := by
  obtain ⟨n, hn⟩ := t
  cases n with
  | zero => exact rfl
  | succ n => exact (by exfalso; have hN : n + 1 < 8 := lt_of_lt_of_eq hn (show cfg1.N = 8 from N_1); (try dsimp only at h0); omega)

theorem outsAt1_B (c : Dev nD) (t : Fin cfg1.N) (h0 : ¬t.val % 8 = 0) (h1 : ¬t.val % 8 = 7) :
    outsAt1 V c t.val t.isLt = (junk1, junk1, atPt1 (sout1_B_0 c) t (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (sout1_B_1 c) t (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 8 = 0) (h1 : t.val % 8 = 7) :
    outsAt1 V c t.val t.isLt = (atPt1 (out1_C_1 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (out1_C_2 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (sout1_C_0 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, atPt1 (sout1_C_1 c) t (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_pos h1).trans rfl

def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ rest1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]

theorem after1_1 (c : Dev nD) (t : Fin cfg1.N) : (dat1 V c).after 1 t = (outsAt1 V c t.val t.isLt).1 := by dsimp only [dat1]

theorem after1_2 (c : Dev nD) (t : Fin cfg1.N) : (dat1 V c).after 2 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · have h1 : ¬t.val % 8 = 7 := by omega
    have hz : t.val = 0 := by omega
    rw [show (dat1 V c).leavesExact 0 t = owns (c : Thread nD τ) (ms1_0 t) fullShare ((dat1 V c).after 0 t) from by
      unfold Dat.leavesExact; rw [liveAt1_0 t], after1_0]
    rw [Dat.leavesExact_idle (dat1 V c) 1 t (idleAt1_1 t (fun h => h1 ((hcond1_1 t).mp h))) (noFlush1_1 t (fun h => h1 ((hcond1_1 t).mp h)))]
    rw [Dat.leavesExact_idle (dat1 V c) 2 t (idleAt1_2 t (fun h => h1 ((hcond1_1 t).mp h))) (noFlush1_2 t (fun h => h1 ((hcond1_1 t).mp h)))]
    rw [outsAt1_A V c t h0 h1]
    unfold atPt1 sout1_A_0 sout1_A_1; (try dsimp only)
    rw [PhiS1_castSucc V c t, PhiS1_zero V c _ _ hz, PhiA1_eq]
    iintro ⟨⟨⟨⟨HS0, HS1⟩, Hr⟩, Hg⟩, Ho, ⟨%d0, H0⟩, ⟨%d1, H1⟩, ⟨%d2, H2⟩⟩
    iapply ((kernelRun0_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)).2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _)
        iexact Hr
      iexact Hg
    isplitl [Ho]; · iexact Ho
    isplitl [H0]; · iexact H0
    isplitl [H1]; · iexists _; iexact H1
    iexists _; iexact H2
  · have hz : t.val ≠ 0 := by omega
    by_cases h1 : t.val % 8 = 7
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t ((hcond1_1 t).mpr h1)], after1_1]
      rw [show (dat1 V c).leavesExact 2 t = owns (c : Thread nD τ) (ms1_2 t) fullShare ((dat1 V c).after 2 t) from by
      unfold Dat.leavesExact; rw [liveAt1_2 t ((hcond1_1 t).mpr h1)], after1_2]
      rw [outsAt1_C V c t h0 h1]
      unfold atPt1 out1_C_1 out1_C_2 sout1_C_0 sout1_C_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun0_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1 t (fun h => h1 ((hcond1_1 t).mp h))) (noFlush1_1 t (fun h => h1 ((hcond1_1 t).mp h)))]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold atPt1 sout1_B_0 sout1_B_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun0_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _)
          iexact Hr
        iexact Hg
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem Phi1_first (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

theorem Phi1_out (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem Phi1_last (c : Dev nD) : (dat1 V c).Φ (Fin.last cfg1.N) ⊢ (Pipeline.ΦA spec1 c : sProp 𝕄) :=
  Phi1_out V c _ (by rw [Fin.val_last]; have : cfg1.N = 8 := N_1; omega)

theorem recorded1 (c : Dev nD) (t : Fin (cfg1.N + 1)) : (dat1 V c).recorded t = Set.univ := rfl

end Cert.KernelIdeal.Hand

end
-- ==== Proof.KI.R2Runs.lean ====
import proofs.«158091_j65489661329953_1_alg».proof.Proof.Gen.KernelIdeal.Launch
import proofs.«158091_j65489661329953_1_alg».proof.Proof.Gen.KernelIdeal.Skeleton
import proofs.«158091_j65489661329953_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1

theorem hcond2_1 : ∀ t : Fin cfg2.N, cond2_1 (grid2.coords t) ↔ t.val % 16 = 15 :=
  (by decide +kernel : ∀ t : Fin grid2.N, cond2_1 (grid2.coords t) ↔ t.val % 16 = 15)

theorem liveAt2_0 : ∀ t : Fin cfg2.N, cfg2.idle 0 (grid2.coords t) = false := by decide +kernel

theorem liveAt2_1 : ∀ t : Fin cfg2.N, cfg2.idle 1 (grid2.coords t) = false := by decide +kernel

theorem liveAt2_2 : ∀ t : Fin cfg2.N, cfg2.idle 2 (grid2.coords t) = false := by decide +kernel

theorem idleAt2_3_A : ∀ t : Fin cfg2.N, cond2_0 (grid2.coords t) → ¬cond2_1 (grid2.coords t) → cfg2.idle 3 (grid2.coords t) = true := by decide +kernel

theorem noFlush2_3_A : ∀ t : Fin cfg2.N, cond2_0 (grid2.coords t) → ¬cond2_1 (grid2.coords t) → (cfg2.win 3).flush t = false := by decide +kernel

theorem idleAt2_3_B : ∀ t : Fin cfg2.N, ¬cond2_0 (grid2.coords t) → ¬cond2_1 (grid2.coords t) → cfg2.idle 3 (grid2.coords t) = true := by decide +kernel

theorem noFlush2_3_B : ∀ t : Fin cfg2.N, ¬cond2_0 (grid2.coords t) → ¬cond2_1 (grid2.coords t) → (cfg2.win 3).flush t = false := by decide +kernel

theorem liveAt2_3_C : ∀ t : Fin cfg2.N, ¬cond2_0 (grid2.coords t) → cond2_1 (grid2.coords t) → cfg2.idle 3 (grid2.coords t) = false := by decide +kernel

abbrev VO2_3 : View sig .tc .vmem S1024x1024 .f32 := (Memref.whole cc2_stg3_0 : Memref sig .tc .vmem S1024x1024 .f32).view

abbrev ms2_0 (t : Fin cfg2.N) : Memref sig .tc .vmem S512x1024 .f32 := win2_0.stage (cfg2.slots t 0)

abbrev hs2_0 (t : Fin cfg2.N) : (ms2_0 t).IsWhole := hstage2_0 ((cfg2.slots t 0).cast nbuf2_0)

abbrev ms2_1 (t : Fin cfg2.N) : Memref sig .tc .vmem S1x1024 .f32 := win2_1.stage (cfg2.slots t 1)

abbrev hs2_1 (t : Fin cfg2.N) : (ms2_1 t).IsWhole := hstage2_1 ((cfg2.slots t 1).cast nbuf2_1)

abbrev ms2_2 (t : Fin cfg2.N) : Memref sig .tc .vmem S1x1024 .f32 := win2_2.stage (cfg2.slots t 2)

abbrev hs2_2 (t : Fin cfg2.N) : (ms2_2 t).IsWhole := hstage2_2 ((cfg2.slots t 2).cast nbuf2_2)

abbrev ms2_3 (t : Fin cfg2.N) : Memref sig .tc .vmem S1024x1024 .f32 := win2_3.stage (cfg2.slots t 3)

abbrev hs2_3 (t : Fin cfg2.N) : (ms2_3 t).IsWhole := hstage2_3 ((cfg2.slots t 3).cast nbuf2_3)

abbrev scM2_0 : Memref sig .tc .vmem S1024x1024 .f32 := Memref.whole cc2_scratch0

abbrev VS2_0 : View sig .tc .vmem S1024x1024 .f32 := scM2_0.view

-- A function of the grid coordinates and the body's five operands, taken at one grid point.
abbrev atPt2 {α : grid2.Coords → Sort _} (f : ∀ (i : grid2.Coords) (a1 : Memref sig .tc .vmem S512x1024 .f32), a1.IsWhole → ∀ a2 : Memref sig .tc .vmem S1x1024 .f32, a2.IsWhole → ∀ a3 : Memref sig .tc .vmem S1x1024 .f32, a3.IsWhole → ∀ a4 : Memref sig .tc .vmem S1024x1024 .f32, a4.IsWhole → ∀ a5 : Memref sig .tc .vmem S1024x1024 .f32, a5.IsWhole → α i) (t : Fin cfg2.N) : α (grid2.coords t) :=
  f (grid2.coords t) (ms2_0 t) (hs2_0 t) (ms2_1 t) (hs2_1 t) (ms2_2 t) (hs2_2 t) (ms2_3 t) (hs2_3 t) scM2_0 (Memref.isWhole_whole _)

theorem PhiA2_eq (c : Dev nD) :
    (Pipeline.ΦA spec2 c : sProp 𝕄)
      = iprop(iprop((∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2_0, owns_whole]; try rfl

end Cert.KernelIdeal.Hand

end
-- ==== Proof.KI.R2RunA.lean ====
import proofs.«158091_j65489661329953_1_alg».proof.Proof.KI.R2Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (hc0 : cond2_0 i) (hc1 : ¬cond2_1 i)
    (x0 : Vec F S512x1024 .f32) (x1 : Vec F S1x1024 .f32) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R2RunB.lean ====
import proofs.«158091_j65489661329953_1_alg».proof.Proof.KI.R2Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond2_0 i) (hc1 : ¬cond2_1 i)
    (x0 : Vec F S512x1024 .f32) (x1 : Vec F S1x1024 .f32) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.R2RunC.lean ====
import proofs.«158091_j65489661329953_1_alg».proof.Proof.KI.R2Runs

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond2_0 i) (hc1 : cond2_1 i)
    (x0 : Vec F S512x1024 .f32) (x1 : Vec F S1x1024 .f32) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg1 harg1 arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.R2Dat.lean ====
import proofs.«158091_j65489661329953_1_alg».proof.Proof.KI.R2Runs
import proofs.«158091_j65489661329953_1_alg».proof.Proof.KI.R2RunA
import proofs.«158091_j65489661329953_1_alg».proof.Proof.KI.R2RunB
import proofs.«158091_j65489661329953_1_alg».proof.Proof.KI.R2RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole)

def out2_A_3 (hc0 : cond2_0 i) (hc1 : ¬cond2_1 i)
    (x0 : Vec F S512x1024 .f32) (x1 : Vec F S1x1024 .f32) (x2 : Vec F S1x1024 .f32) : Vec F S1024x1024 .f32 :=
  VO2_3.read (Elt F) (VO2_3.writes (Elt F) VO2_3.junk (kernelRun2_A c i arg1 harg1 arg2 harg2 arg3 harg3 arg4 harg4 arg5 harg5 hc0 hc1 x0 x1 x2).1)

theorem scover2_A_0 (hc0 : cond2_0 i) (hc1 : ¬cond2_1 i)
    (x0 : Vec F S512x1024 .f32) (x1 : Vec F S1x1024 .f32) (x2 : Vec F S1x1024 .f32) (y : S1024x1024.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1024x1024.size (by sl_kernel_rfl) y

def sout2_A_0 (hc0 : cond2_0 i) (hc1 : ¬cond2_1 i)
    (x0 : Vec F S512x1024 .f32) (x1 : Vec F S1x1024 .f32) (x2 : Vec F S1x1024 .f32) : Vec F S1024x1024 .f32 :=
  VS2_0.read (Elt F) (VS2_0.writes (Elt F) VS2_0.junk (kernelRun2_A c i arg1 harg1 arg2 harg2 arg3 harg3 arg4 harg4 arg5 harg5 hc0 hc1 x0 x1 x2).2.1)

def out2_B_3 (hc0 : ¬cond2_0 i) (hc1 : ¬cond2_1 i)
    (x0 : Vec F S512x1024 .f32) (x1 : Vec F S1x1024 .f32) (x2 : Vec F S1x1024 .f32) (xs0 : Vec F S1024x1024 .f32) : Vec F S1024x1024 .f32 :=
  VO2_3.read (Elt F) (VO2_3.writes (Elt F) VO2_3.junk (kernelRun2_B c i arg1 harg1 arg2 harg2 arg3 harg3 arg4 harg4 arg5 harg5 hc0 hc1 x0 x1 x2 xs0).1)

theorem scover2_B_0 (hc0 : ¬cond2_0 i) (hc1 : ¬cond2_1 i)
    (x0 : Vec F S512x1024 .f32) (x1 : Vec F S1x1024 .f32) (x2 : Vec F S1x1024 .f32) (xs0 : Vec F S1024x1024 .f32) (y : S1024x1024.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1024x1024.size (by sl_kernel_rfl) y

def sout2_B_0 (hc0 : ¬cond2_0 i) (hc1 : ¬cond2_1 i)
    (x0 : Vec F S512x1024 .f32) (x1 : Vec F S1x1024 .f32) (x2 : Vec F S1x1024 .f32) (xs0 : Vec F S1024x1024 .f32) : Vec F S1024x1024 .f32 :=
  VS2_0.read (Elt F) (VS2_0.writes (Elt F) VS2_0.junk (kernelRun2_B c i arg1 harg1 arg2 harg2 arg3 harg3 arg4 harg4 arg5 harg5 hc0 hc1 x0 x1 x2 xs0).2.1)

theorem cover2_C_3 (hc0 : ¬cond2_0 i) (hc1 : cond2_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1024x1024.size (by sl_kernel_rfl) y

def out2_C_3 (hc0 : ¬cond2_0 i) (hc1 : cond2_1 i)
    (x0 : Vec F S512x1024 .f32) (x1 : Vec F S1x1024 .f32) (x2 : Vec F S1x1024 .f32) (xs0 : Vec F S1024x1024 .f32) : Vec F S1024x1024 .f32 :=
  VO2_3.read (Elt F) (VO2_3.writes (Elt F) VO2_3.junk (kernelRun2_C c i arg1 harg1 arg2 harg2 arg3 harg3 arg4 harg4 arg5 harg5 hc0 hc1 x0 x1 x2 xs0).1)

theorem scover2_C_0 (hc0 : ¬cond2_0 i) (hc1 : cond2_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1024x1024.size (by sl_kernel_rfl) y

def sout2_C_0 (hc0 : ¬cond2_0 i) (hc1 : cond2_1 i)
    (x0 : Vec F S512x1024 .f32) (x1 : Vec F S1x1024 .f32) (x2 : Vec F S1x1024 .f32) (xs0 : Vec F S1024x1024 .f32) : Vec F S1024x1024 .f32 :=
  VS2_0.read (Elt F) (VS2_0.writes (Elt F) VS2_0.junk (kernelRun2_C c i arg1 harg1 arg2 harg2 arg3 harg3 arg4 harg4 arg5 harg5 hc0 hc1 x0 x1 x2 xs0).2.1)

theorem ncond2_0_succ (n : ℕ) (hn : n + 1 < cfg2.N) : ¬cond2_0 (grid2.coords ⟨n + 1, hn⟩) := fun h => by
  have h' := (hcond2_0 ⟨n + 1, hn⟩).mp h
  have hN : n + 1 < 16 := lt_of_lt_of_eq hn (show cfg2.N = 16 from N_2)
  dsimp only at h'; omega

def outsAt2 (c : Dev nD) : (n : ℕ) → n < cfg2.N → Vec F S1024x1024 .f32 × Vec F S1024x1024 .f32
  | 0, hn => (atPt2 (out2_A_3 c) ⟨0, hn⟩ ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), atPt2 (sout2_A_0 c) ⟨0, hn⟩ ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h1 : (n + 1) % 16 = 15 then
      (atPt2 (out2_C_3 c) ⟨n + 1, hn⟩ (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, atPt2 (sout2_C_0 c) ⟨n + 1, hn⟩ (ncond2_0_succ n hn) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (atPt2 (out2_B_3 c) ⟨n + 1, hn⟩ (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, atPt2 (sout2_B_0 c) ⟨n + 1, hn⟩ (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (atPt2 (out2_A_3 c) t ((hcond2_0 t).mpr h0) (fun h => h1 ((hcond2_1 t).mp h)) (iblk2 V c 0 t) (iblk2 V c 1 t) (iblk2 V c 2 t), atPt2 (sout2_A_0 c) t ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n =>
    exfalso
    have hN : n + 1 < 16 := lt_of_lt_of_eq hn (show cfg2.N = 16 from N_2)
    dsimp only at h0; omega

theorem outsAt2_B (c : Dev nD) (t : Fin cfg2.N) (h0 : ¬t.val % 16 = 0) (h1 : ¬t.val % 16 = 15) :
    outsAt2 V c t.val t.isLt = (atPt2 (out2_B_3 c) t (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, atPt2 (sout2_B_0 c) t (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt2_C (c : Dev nD) (t : Fin cfg2.N) (h0 : ¬t.val % 16 = 0) (h1 : t.val % 16 = 15) :
    outsAt2 V c t.val t.isLt = (atPt2 (out2_C_3 c) t (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, atPt2 (sout2_C_0 c) t (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

abbrev rest2 (c : Dev nD) : sProp 𝕄 :=
  Pipeline.scopedRestBut (Ix := Unit) (Name := ℕ) (U := UR sig nD τ) (Lvl := ℕ) (Val := Elt F) spec2 c [cc2_scratch0]

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem share2 (c : Dev nD) (w : Fin cfg2.W) : (dat2 V c).share w = fullShare :=
  (dat2 V c).share_full (fun _ => rfl) w

theorem owed2 (c : Dev nD) (t : Fin (cfg2.N + 1)) : (dat2 V c).owed t = 0 := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]

theorem after2_1 (c : Dev nD) (t : Fin cfg2.N) : (dat2 V c).after 1 t = iblk2 V c 1 t := by dsimp only [dat2]

theorem after2_2 (c : Dev nD) (t : Fin cfg2.N) : (dat2 V c).after 2 t = iblk2 V c 2 t := by dsimp only [dat2]

theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d

theorem before2_1 (c : Dev nD) (t : Fin cfg2.N) (d) : (dat2 V c).before 1 t d = iblk2 V c 1 t :=
  before2_1_of V (dat2 V c) (A_eq2 V c 1) (after2_1 V c) t d

theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold atPt2 sout2_A_0; (try dsimp only)
      have hz : t.val = 0 := by omega
      rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩⟩
      iapply ((kernelRun2_A c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · by_cases h1 : t.val % 16 = 15
    ·
      rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3_C t (fun h => h0 ((hcond2_0 t).mp h)) ((hcond2_1 t).mpr h1)], after2_3]
      rw [outsAt2_C V c t h0 h1]
      unfold atPt2 out2_C_3 sout2_C_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold atPt2 sout2_B_0; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem Phi2_first (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem Phi2_last (c : Dev nD) : (dat2 V c).Φ (Fin.last cfg2.N) ⊢ (Pipeline.ΦA spec2 c : sProp 𝕄) :=
  Phi2_out V c _ (by rw [Fin.val_last]; have : cfg2.N = 16 := N_2; omega)

theorem recorded2 (c : Dev nD) (t : Fin (cfg2.N + 1)) : (dat2 V c).recorded t = Set.univ := rfl

end Cert.KernelIdeal.Hand

end
-- ==== Proof.KI.R3Runs.lean ====
import proofs.«158091_j65489661329953_1_alg».proof.Proof.Gen.KernelIdeal.Launch
import proofs.«158091_j65489661329953_1_alg».proof.Proof.Gen.KernelIdeal.Skeleton
import proofs.«158091_j65489661329953_1_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1

theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel

theorem liveAt3_1 : ∀ t : Fin cfg3.N, cfg3.idle 1 (grid3.coords t) = false := by decide +kernel

theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel

theorem noFlush3_3_A : ∀ t : Fin cfg3.N, cond3_0 (grid3.coords t) → ¬cond3_1 (grid3.coords t) → (cfg3.win 3).flush t = false := by decide +kernel

theorem idleAt3_3_B : ∀ t : Fin cfg3.N, ¬cond3_0 (grid3.coords t) → ¬cond3_1 (grid3.coords t) → cfg3.idle 3 (grid3.coords t) = true := by decide +kernel

theorem noFlush3_3_B : ∀ t : Fin cfg3.N, ¬cond3_0 (grid3.coords t) → ¬cond3_1 (grid3.coords t) → (cfg3.win 3).flush t = false := by decide +kernel

theorem liveAt3_3_C : ∀ t : Fin cfg3.N, ¬cond3_0 (grid3.coords t) → cond3_1 (grid3.coords t) → cfg3.idle 3 (grid3.coords t) = false := by decide +kernel

abbrev VO3_3 : View sig .tc .vmem S1024x1024 .f32 := (Memref.whole cc3_stg3_0 : Memref sig .tc .vmem S1024x1024 .f32).view

abbrev ms3_0 (t : Fin cfg3.N) : Memref sig .tc .vmem S512x1024 .f32 := win3_0.stage (cfg3.slots t 0)

abbrev hs3_0 (t : Fin cfg3.N) : (ms3_0 t).IsWhole := hstage3_0 ((cfg3.slots t 0).cast nbuf3_0)

abbrev ms3_1 (t : Fin cfg3.N) : Memref sig .tc .vmem S1x1024 .f32 := win3_1.stage (cfg3.slots t 1)

abbrev hs3_1 (t : Fin cfg3.N) : (ms3_1 t).IsWhole := hstage3_1 ((cfg3.slots t 1).cast nbuf3_1)

abbrev ms3_2 (t : Fin cfg3.N) : Memref sig .tc .vmem S1x1024 .f32 := win3_2.stage (cfg3.slots t 2)

abbrev hs3_2 (t : Fin cfg3.N) : (ms3_2 t).IsWhole := hstage3_2 ((cfg3.slots t 2).cast nbuf3_2)

abbrev ms3_3 (t : Fin cfg3.N) : Memref sig .tc .vmem S1024x1024 .f32 := win3_3.stage (cfg3.slots t 3)

abbrev hs3_3 (t : Fin cfg3.N) : (ms3_3 t).IsWhole := hstage3_3 ((cfg3.slots t 3).cast nbuf3_3)

abbrev scM3_0 : Memref sig .tc .vmem S1024x1024 .f32 := Memref.whole cc3_scratch0

abbrev VS3_0 : View sig .tc .vmem S1024x1024 .f32 := scM3_0.view

-- A function of the grid coordinates and the body's five operands, taken at one grid point.
abbrev atPt3 {α : grid3.Coords → Sort _} (f : ∀ (i : grid3.Coords) (a1 : Memref sig .tc .vmem S512x1024 .f32), a1.IsWhole → ∀ a2 : Memref sig .tc .vmem S1x1024 .f32, a2.IsWhole → ∀ a3 : Memref sig .tc .vmem S1x1024 .f32, a3.IsWhole → ∀ a4 : Memref sig .tc .vmem S1024x1024 .f32, a4.IsWhole → ∀ a5 : Memref sig .tc .vmem S1024x1024 .f32, a5.IsWhole → α i) (t : Fin cfg3.N) : α (grid3.coords t) :=
  f (grid3.coords t) (ms3_0 t) (hs3_0 t) (ms3_1 t) (hs3_1 t) (ms3_2 t) (hs3_2 t) (ms3_3 t) (hs3_3 t) scM3_0 (Memref.isWhole_whole _)

theorem PhiA3_eq (c : Dev nD) :
    (Pipeline.ΦA spec3 c : sProp 𝕄)
      = iprop(iprop((∃ d, owns (c : Thread nD τ) scM3_0 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3_0, owns_whole]; try rfl

end Cert.KernelIdeal.Hand

end
-- ==== Proof.KI.R3Dat.lean ====
import proofs.«158091_j65489661329953_1_alg».proof.Proof.KI.R3Runs
import proofs.«158091_j65489661329953_1_alg».proof.Proof.KI.R2RunA
import proofs.«158091_j65489661329953_1_alg».proof.Proof.KI.R2RunB
import proofs.«158091_j65489661329953_1_alg».proof.Proof.KI.R2RunC

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (i : grid3.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole)

def out3_A_3 (hc0 : cond3_0 i) (hc1 : ¬cond3_1 i)
    (x0 : Vec F S512x1024 .f32) (x1 : Vec F S1x1024 .f32) (x2 : Vec F S1x1024 .f32) : Vec F S1024x1024 .f32 :=
  VO3_3.read (Elt F) (VO3_3.writes (Elt F) VO3_3.junk (kernelRun2_A c i arg1 harg1 arg2 harg2 arg3 harg3 arg4 harg4 arg5 harg5 hc0 hc1 x0 x1 x2).1)

theorem scover3_A_0 (hc0 : cond3_0 i) (hc1 : ¬cond3_1 i)
    (x0 : Vec F S512x1024 .f32) (x1 : Vec F S1x1024 .f32) (x2 : Vec F S1x1024 .f32) (y : S1024x1024.Idx) :
    ∃ pc ∈ (kernelRun2_A c i arg1 harg1 arg2 harg2 arg3 harg3 arg4 harg4 arg5 harg5 hc0 hc1 x0 x1 x2).2.1, y ∈ pc.1.set :=
  View.cover_of_tiledL (kernelRun2_A c i arg1 harg1 arg2 harg2 arg3 harg3 arg4 harg4 arg5 harg5 hc0 hc1 x0 x1 x2).2.1 S1024x1024.size (by sl_kernel_rfl) y

def sout3_A_0 (hc0 : cond3_0 i) (hc1 : ¬cond3_1 i)
    (x0 : Vec F S512x1024 .f32) (x1 : Vec F S1x1024 .f32) (x2 : Vec F S1x1024 .f32) : Vec F S1024x1024 .f32 :=
  VS3_0.read (Elt F) (VS3_0.writes (Elt F) VS3_0.junk (kernelRun2_A c i arg1 harg1 arg2 harg2 arg3 harg3 arg4 harg4 arg5 harg5 hc0 hc1 x0 x1 x2).2.1)

def out3_B_3 (hc0 : ¬cond3_0 i) (hc1 : ¬cond3_1 i)
    (x0 : Vec F S512x1024 .f32) (x1 : Vec F S1x1024 .f32) (x2 : Vec F S1x1024 .f32) (xs0 : Vec F S1024x1024 .f32) : Vec F S1024x1024 .f32 :=
  VO3_3.read (Elt F) (VO3_3.writes (Elt F) VO3_3.junk (kernelRun2_B c i arg1 harg1 arg2 harg2 arg3 harg3 arg4 harg4 arg5 harg5 hc0 hc1 x0 x1 x2 xs0).1)

theorem scover3_B_0 (hc0 : ¬cond3_0 i) (hc1 : ¬cond3_1 i)
    (x0 : Vec F S512x1024 .f32) (x1 : Vec F S1x1024 .f32) (x2 : Vec F S1x1024 .f32) (xs0 : Vec F S1024x1024 .f32) (y : S1024x1024.Idx) :
    ∃ pc ∈ (kernelRun2_B c i arg1 harg1 arg2 harg2 arg3 harg3 arg4 harg4 arg5 harg5 hc0 hc1 x0 x1 x2 xs0).2.1, y ∈ pc.1.set :=
  View.cover_of_tiledL (kernelRun2_B c i arg1 harg1 arg2 harg2 arg3 harg3 arg4 harg4 arg5 harg5 hc0 hc1 x0 x1 x2 xs0).2.1 S1024x1024.size (by sl_kernel_rfl) y

def sout3_B_0 (hc0 : ¬cond3_0 i) (hc1 : ¬cond3_1 i)
    (x0 : Vec F S512x1024 .f32) (x1 : Vec F S1x1024 .f32) (x2 : Vec F S1x1024 .f32) (xs0 : Vec F S1024x1024 .f32) : Vec F S1024x1024 .f32 :=
  VS3_0.read (Elt F) (VS3_0.writes (Elt F) VS3_0.junk (kernelRun2_B c i arg1 harg1 arg2 harg2 arg3 harg3 arg4 harg4 arg5 harg5 hc0 hc1 x0 x1 x2 xs0).2.1)

theorem cover3_C_3 (hc0 : ¬cond3_0 i) (hc1 : cond3_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).1, y ∈ pc.1.set :=
  View.cover_of_tiledL (kernelRun2_C c i arg1 harg1 arg2 harg2 arg3 harg3 arg4 harg4 arg5 harg5 hc0 hc1 x0 x1 x2 xs0).1 S1024x1024.size (by sl_kernel_rfl) y

def out3_C_3 (hc0 : ¬cond3_0 i) (hc1 : cond3_1 i)
    (x0 : Vec F S512x1024 .f32) (x1 : Vec F S1x1024 .f32) (x2 : Vec F S1x1024 .f32) (xs0 : Vec F S1024x1024 .f32) : Vec F S1024x1024 .f32 :=
  VO3_3.read (Elt F) (VO3_3.writes (Elt F) VO3_3.junk (kernelRun2_C c i arg1 harg1 arg2 harg2 arg3 harg3 arg4 harg4 arg5 harg5 hc0 hc1 x0 x1 x2 xs0).1)

theorem scover3_C_0 (hc0 : ¬cond3_0 i) (hc1 : cond3_1 i)
    (x0 : Vec F S512x1024 .f32) (x1 : Vec F S1x1024 .f32) (x2 : Vec F S1x1024 .f32) (xs0 : Vec F S1024x1024 .f32) (y : S1024x1024.Idx) :
    ∃ pc ∈ (kernelRun2_C c i arg1 harg1 arg2 harg2 arg3 harg3 arg4 harg4 arg5 harg5 hc0 hc1 x0 x1 x2 xs0).2.1, y ∈ pc.1.set :=
  View.cover_of_tiledL (kernelRun2_C c i arg1 harg1 arg2 harg2 arg3 harg3 arg4 harg4 arg5 harg5 hc0 hc1 x0 x1 x2 xs0).2.1 S1024x1024.size (by sl_kernel_rfl) y

def sout3_C_0 (hc0 : ¬cond3_0 i) (hc1 : cond3_1 i)
    (x0 : Vec F S512x1024 .f32) (x1 : Vec F S1x1024 .f32) (x2 : Vec F S1x1024 .f32) (xs0 : Vec F S1024x1024 .f32) : Vec F S1024x1024 .f32 :=
  VS3_0.read (Elt F) (VS3_0.writes (Elt F) VS3_0.junk (kernelRun2_C c i arg1 harg1 arg2 harg2 arg3 harg3 arg4 harg4 arg5 harg5 hc0 hc1 x0 x1 x2 xs0).2.1)

theorem ncond2_0_succ_s3 (n : ℕ) (hn : n + 1 < cfg3.N) : ¬cond3_0 (grid3.coords ⟨n + 1, hn⟩) := fun h => by
  have h' := (hcond3_0 ⟨n + 1, hn⟩).mp h
  have hN : n + 1 < 16 := lt_of_lt_of_eq hn (show cfg3.N = 16 from N_3)
  dsimp only at h'; omega

def outsAt3 (c : Dev nD) : (n : ℕ) → n < cfg3.N → Vec F S1024x1024 .f32 × Vec F S1024x1024 .f32
  | 0, hn => (atPt3 (out3_A_3 c) ⟨0, hn⟩ ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), atPt3 (sout3_A_0 c) ⟨0, hn⟩ ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h1 : (n + 1) % 16 = 15 then
      (atPt3 (out3_C_3 c) ⟨n + 1, hn⟩ (ncond2_0_succ_s3 n hn) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, atPt3 (sout3_C_0 c) ⟨n + 1, hn⟩ (ncond2_0_succ_s3 n hn) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
    else
      (atPt3 (out3_B_3 c) ⟨n + 1, hn⟩ (ncond2_0_succ_s3 n hn) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, atPt3 (sout3_B_0 c) ⟨n + 1, hn⟩ (ncond2_0_succ_s3 n hn) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 16 = 0) (h1 : ¬t.val % 16 = 15) :
    outsAt3 V c t.val t.isLt = (atPt3 (out3_A_3 c) t ((hcond3_0 t).mpr h0) (fun h => h1 ((hcond3_1 t).mp h)) (iblk3 V c 0 t) (iblk3 V c 1 t) (iblk3 V c 2 t), atPt3 (sout3_A_0 c) t ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n =>
    exfalso
    have hN : n + 1 < 16 := lt_of_lt_of_eq hn (show cfg3.N = 16 from N_3)
    dsimp only at h0; omega

theorem outsAt3_B (c : Dev nD) (t : Fin cfg3.N) (h0 : ¬t.val % 16 = 0) (h1 : ¬t.val % 16 = 15) :
    outsAt3 V c t.val t.isLt = (atPt3 (out3_B_3 c) t (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, atPt3 (sout3_B_0 c) t (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt3_C (c : Dev nD) (t : Fin cfg3.N) (h0 : ¬t.val % 16 = 0) (h1 : t.val % 16 = 15) :
    outsAt3 V c t.val t.isLt = (atPt3 (out3_C_3 c) t (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, atPt3 (sout3_C_0 c) t (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

abbrev rest3 (c : Dev nD) : sProp 𝕄 :=
  Pipeline.scopedRestBut (Ix := Unit) (Name := ℕ) (U := UR sig nD τ) (Lvl := ℕ) (Val := Elt F) spec3 c [cc3_scratch0]

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem share3 (c : Dev nD) (w : Fin cfg3.W) : (dat3 V c).share w = fullShare :=
  (dat3 V c).share_full (fun _ => rfl) w

theorem owed3 (c : Dev nD) (t : Fin (cfg3.N + 1)) : (dat3 V c).owed t = 0 := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]

theorem after3_1 (c : Dev nD) (t : Fin cfg3.N) : (dat3 V c).after 1 t = iblk3 V c 1 t := by dsimp only [dat3]

theorem after3_2 (c : Dev nD) (t : Fin cfg3.N) : (dat3 V c).after 2 t = iblk3 V c 2 t := by dsimp only [dat3]

theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  by_cases h0 : t.val % 16 = 0
  · by_cases h1 : t.val % 16 = 15
    · exfalso; omega
    ·
      rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold atPt3 sout3_A_0; (try dsimp only)
      have hz : t.val = 0 := by omega
      rw [PhiS3_castSucc V c t, PhiS3_zero V c _ _ hz, PhiA3_eq]
      iintro ⟨⟨⟨HS0, HR⟩, Hg⟩, Ho, ⟨%d0, H0⟩, ⟨%d1, H1⟩, ⟨%d2, H2⟩, ⟨%d3, H3⟩⟩
      iapply ((kernelRun2_A c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · by_cases h1 : t.val % 16 = 15
    ·
      rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [show (dat3 V c).leavesExact 3 t = owns (c : Thread nD τ) (ms3_3 t) fullShare ((dat3 V c).after 3 t) from by
          unfold Dat.leavesExact; rw [liveAt3_3_C t (fun h => h0 ((hcond3_0 t).mp h)) ((hcond3_1 t).mpr h1)], after3_3]
      rw [outsAt3_C V c t h0 h1]
      unfold atPt3 out3_C_3 sout3_C_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
          unfold Dat.leavesExact; rw [liveAt3_0 t], after3_0]
      rw [show (dat3 V c).leavesExact 1 t = owns (c : Thread nD τ) (ms3_1 t) fullShare ((dat3 V c).after 1 t) from by
          unfold Dat.leavesExact; rw [liveAt3_1 t], after3_1]
      rw [show (dat3 V c).leavesExact 2 t = owns (c : Thread nD τ) (ms3_2 t) fullShare ((dat3 V c).after 2 t) from by
          unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold atPt3 sout3_B_0; (try dsimp only)
      have hz : t.val ≠ 0 := by omega
      rw [PhiS3_castSucc V c t, PhiS3_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

theorem Phi3_first (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

theorem Phi3_out (c : Dev nD) (t : Fin (cfg3.N + 1)) (ht : t.val ≠ 0) : (dat3 V c).Φ t ⊢ (Pipeline.ΦA spec3 c : sProp 𝕄) := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

theorem Phi3_last (c : Dev nD) : (dat3 V c).Φ (Fin.last cfg3.N) ⊢ (Pipeline.ΦA spec3 c : sProp 𝕄) :=
  Phi3_out V c _ (by rw [Fin.val_last]; have : cfg3.N = 16 := N_3; omega)

theorem recorded3 (c : Dev nD) (t : Fin (cfg3.N + 1)) : (dat3 V c).recorded t = Set.univ := rfl

end Cert.KernelIdeal.Hand

end
-- ==== Proof.KI.R4Dat.lean ====
import proofs.«158091_j65489661329953_1_alg».proof.Proof.Gen.KernelIdeal.Launch
import proofs.«158091_j65489661329953_1_alg».proof.Proof.Gen.KernelIdeal.Skeleton
import proofs.«158091_j65489661329953_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1024x1024 := Rect.unit (s := S1024x1024) ![0, 0] S1024x1024.size inb_S1024x1024_S1024x1024_0_0

abbrev r4_2 : Rect S1x1 := Rect.unit (s := S1x1) ![0, 0] S1x1.size inb_S1x1_S1x1_0_0

def out4_2 (x0 x1 : Vec F S1024x1024 .f32) : Vec F S1x1 .f32 :=
  View.canon [⟨r4_2, k4_pay1 (View.ld x0 r4_0) (View.ld x1 r4_0)⟩]

theorem cover4_2 (p0 : Vec F S1x1 .f32) (y : S1x1.Idx) :
    ∃ pc ∈ ([⟨r4_2, p0⟩] : List (View.Piece (Elt F) S1x1 .f32)), y ∈ pc.1.set :=
  View.cover_of_tiled [⟨r4_2, p0⟩] S1x1.size (by rfl) y

set_option maxHeartbeats 1000000 in
theorem sound_kernel4 (c : Dev nD) (E : Set ℕ) (i : grid4.Coords) (arg0 : Memref sig .tc .vmem S1024x1024 .f32) (harg0 : arg0.IsWhole) (arg1 : Memref sig .tc .vmem S1024x1024 .f32) (harg1 : arg1.IsWhole)
    (arg2 : Memref sig .tc .vmem S1x1 .f32) (harg2 : arg2.IsWhole)
    (x0 x1 : Vec F S1024x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4_kernel i arg0 harg0 arg1 harg1 arg2 harg2) K := by
  simp only [cc4_kernel_eq_skeleton]; unfold cc4_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem share4 (c : Dev nD) (w : Fin cfg4.W) : (dat4 V c).share w = fullShare := by
  unfold Dat.share; split
  · rfl
  · rfl

theorem owed4 (c : Dev nD) (t : Fin (cfg4.N + 1)) : (dat4 V c).owed t = 0 := rfl

theorem after4_0 (c : Dev nD) (t : Fin cfg4.N) : (dat4 V c).after 0 t = iblk4 V c 0 t := by dsimp only [dat4]

theorem after4_1 (c : Dev nD) (t : Fin cfg4.N) : (dat4 V c).after 1 t = iblk4 V c 1 t := by dsimp only [dat4]

theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d

theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

theorem Phi4_first (c : Dev nD) : (Pipeline.ΦA spec4 c : sProp 𝕄) ⊢ (dat4 V c).Φ 0 := .rfl

theorem Phi4_last (c : Dev nD) : (dat4 V c).Φ (Fin.last cfg4.N) ⊢ (Pipeline.ΦA spec4 c : sProp 𝕄) := .rfl

theorem recorded4 (c : Dev nD) (t : Fin (cfg4.N + 1)) : (dat4 V c).recorded t = Set.univ := rfl

end Cert.KernelIdeal.Hand

end
-- ==== Proof.KI.Launch.lean ====
import proofs.«158091_j65489661329953_1_alg».proof.Proof.KI.R0Dat
import proofs.«158091_j65489661329953_1_alg».proof.Proof.KI.R1Dat
import proofs.«158091_j65489661329953_1_alg».proof.Proof.KI.R2Dat
import proofs.«158091_j65489661329953_1_alg».proof.Proof.KI.R3Dat
import proofs.«158091_j65489661329953_1_alg».proof.Proof.KI.R4Dat
import proofs.«158091_j65489661329953_1_alg».proof.Proof.Gen.KernelIdeal.Launch
import proofs.«158091_j65489661329953_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w

theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

abbrev V1 : (c : Dev nD) → (b : Ref sig .tc) → Buf (Elt F) ((c : Thread nD τ).loc b) := fun c b => W1 m c b

theorem hF0 (c : Dev nD) (w : Fin cfg0.W) : (dat0 (V0 m) c).arrAt w cfg0.N = V1 m c (Pipeline.arrRef spec0 w) :=
  (W1_arr m c w).symm

theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (V1 m) c).arrAt w cfg1.N

theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w

theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

abbrev V2 : (c : Dev nD) → (b : Ref sig .tc) → Buf (Elt F) ((c : Thread nD τ).loc b) := fun c b => W2 m c b

theorem hF1 (c : Dev nD) (w : Fin cfg1.W) : (dat1 (V1 m) c).arrAt w cfg1.N = V2 m c (Pipeline.arrRef spec1 w) :=
  (W2_arr m c w).symm

theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

def W3 (c : Dev nD) : Valuation τ sig (Elt F) :=
  Pipeline.withArrays spec2 c (W2 m c) fun w => (dat2 (V2 m) c).arrAt w cfg2.N

theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w

theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb

abbrev V3 : (c : Dev nD) → (b : Ref sig .tc) → Buf (Elt F) ((c : Thread nD τ).loc b) := fun c b => W3 m c b

theorem hF2 (c : Dev nD) (w : Fin cfg2.W) : (dat2 (V2 m) c).arrAt w cfg2.N = V3 m c (Pipeline.arrRef spec2 w) :=
  (W3_arr m c w).symm

theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

def W4 (c : Dev nD) : Valuation τ sig (Elt F) :=
  Pipeline.withArrays spec3 c (W3 m c) fun w => (dat3 (V3 m) c).arrAt w cfg3.N

theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w

theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb

abbrev V4 : (c : Dev nD) → (b : Ref sig .tc) → Buf (Elt F) ((c : Thread nD τ).loc b) := fun c b => W4 m c b

theorem hF3 (c : Dev nD) (w : Fin cfg3.W) : (dat3 (V3 m) c).arrAt w cfg3.N = V4 m c (Pipeline.arrRef spec3 w) :=
  (W4_arr m c w).symm

theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

def W5 (c : Dev nD) : Valuation τ sig (Elt F) :=
  Pipeline.withArrays spec4 c (W4 m c) fun w => (dat4 (V4 m) c).arrAt w cfg4.N

theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w

theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb

abbrev V5 : (c : Dev nD) → (b : Ref sig .tc) → Buf (Elt F) ((c : Thread nD τ).loc b) := fun c b => W5 m c b

theorem hF4 (c : Dev nD) (w : Fin cfg4.W) : (dat4 (V4 m) c).arrAt w cfg4.N = V5 m c (Pipeline.arrRef spec4 w) :=
  (W5_arr m c w).symm

theorem hrest4 (c : Dev nD) : ∀ b, b ∉ Finset.univ.image (Pipeline.arrRef spec4) → V5 m c b = V4 m c b :=
  fun b hb => W5_of_ne m c b fun w e => hb (Finset.mem_image.mpr ⟨w, Finset.mem_univ _, e⟩)

abbrev W6 : Dev nD → Valuation τ sig (Elt F) := fun c => StableHlo.after hostOps5 (W5 m c)

theorem V1_arg1 (c : Dev nD) : V1 m c main_arg1 = m ((c : Thread nD τ).loc main_arg1) :=
  (W1_of_ne m c main_arg1 (by decide)).trans rfl

theorem V2_arg0 (c : Dev nD) : V2 m c main_arg0 = m ((c : Thread nD τ).loc main_arg0) :=
  calc W2 m c (Proc.devRef .tc main_arg0)
    _ = W1 m c (Proc.devRef .tc main_arg0) := W2_of_ne m c main_arg0 (by decide)
    _ = (dat0 (V0 m) c).arrAt 0 cfg0.N := W1_arr m c 0
    _ = V0 m c main_arg0 := ((dat0 (V0 m) c).arrAt_in 0 rfl _).trans (A_eq0 (V0 m) c 0)
    _ = m ((c : Thread nD τ).loc main_arg0) := rfl

theorem V2_v0_0 (c : Dev nD) : V2 m c main_v0_0 = (dat0 (V0 m) c).arrAt 1 cfg0.N :=
  (W2_of_ne m c main_v0_0 (by decide)).trans (W1_arr m c 1)

theorem V2_v0_1 (c : Dev nD) : V2 m c main_v0_1 = (dat0 (V0 m) c).arrAt 2 cfg0.N :=
  (W2_of_ne m c main_v0_1 (by decide)).trans (W1_arr m c 2)

theorem V3_arg1 (c : Dev nD) : V3 m c main_arg1 = m ((c : Thread nD τ).loc main_arg1) :=
  calc W3 m c (Proc.devRef .tc main_arg1)
    _ = W2 m c (Proc.devRef .tc main_arg1) := W3_of_ne m c main_arg1 (by decide)
    _ = (dat1 (V1 m) c).arrAt 0 cfg1.N := W2_arr m c 0
    _ = V1 m c main_arg1 := ((dat1 (V1 m) c).arrAt_in 0 rfl _).trans (A_eq1 (V1 m) c 0)
    _ = m ((c : Thread nD τ).loc main_arg1) := V1_arg1 m c

theorem V3_v1_0 (c : Dev nD) : V3 m c main_v1_0 = (dat1 (V1 m) c).arrAt 1 cfg1.N :=
  (W3_of_ne m c main_v1_0 (by decide)).trans (W2_arr m c 1)

theorem V3_v1_1 (c : Dev nD) : V3 m c main_v1_1 = (dat1 (V1 m) c).arrAt 2 cfg1.N :=
  (W3_of_ne m c main_v1_1 (by decide)).trans (W2_arr m c 2)

theorem V4_v2 (c : Dev nD) : V4 m c main_v2 = (dat2 (V2 m) c).arrAt 3 cfg2.N :=
  (W4_of_ne m c main_v2 (by decide)).trans (W3_arr m c 3)

theorem V4_v3 (c : Dev nD) : V4 m c main_v3 = (dat3 (V3 m) c).arrAt 3 cfg3.N :=
  W4_arr m c 3

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps5 _ hostOps5_writes (by decide)
    _ = W4 m c (Proc.devRef .tc main_arg0) := W5_of_ne m c main_arg0 (by decide)
    _ = W3 m c (Proc.devRef .tc main_arg0) := W4_of_ne m c main_arg0 (by decide)
    _ = (dat2 (V2 m) c).arrAt 0 cfg2.N := W3_arr m c 0
    _ = V2 m c main_arg0 := ((dat2 (V2 m) c).arrAt_in 0 rfl _).trans (A_eq2 (V2 m) c 0)
    _ = m ((c : Thread nD τ).loc main_arg0) := V2_arg0 m c

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps5 _ hostOps5_writes (by decide)
    _ = W4 m c (Proc.devRef .tc main_arg1) := W5_of_ne m c main_arg1 (by decide)
    _ = (dat3 (V3 m) c).arrAt 0 cfg3.N := W4_arr m c 0
    _ = V3 m c main_arg1 := ((dat3 (V3 m) c).arrAt_in 0 rfl _).trans (A_eq3 (V3 m) c 0)
    _ = m ((c : Thread nD τ).loc main_arg1) := V3_arg1 m c

theorem W5_v4 (c : Dev nD) : W5 m c (Proc.devRef .tc main_v4) = (dat4 (V4 m) c).arrAt 2 cfg4.N := W5_arr m c 2

theorem W6_main_v5 (c : Dev nD) : W6 m c (Proc.devRef .tc main_v5)
    = fun i => shapeCast S_ ((dat4 (V4 m) c).arrAt 2 cfg4.N) shapeCasts_S1x1_S_ i := by
  unfold W6
  simp only [StableHlo.after_cons, StableHlo.after_nil]
  rw [StableHlo.reshape_result, W5_v4]
  rfl

def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c

abbrev lvSet : GSem nD τ sig → Finset Unit := fun _ => ∅

abbrev lvOf : GSem nD τ sig → Unit → ℕ := fun _ _ => 0

abbrev rideR (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev toV (W : Dev nD → Valuation τ sig (Elt F)) : (c : Dev nD) → (b : Ref sig .tc) → Buf (Elt F) ((c : Thread nD τ).loc b) := fun c b => W c b

-- One record for every region of @main: what differs between the regions enters as hypotheses.
set_option backward.isDefEq.respectTransparency.types false in
def mkReg (p : Fin 5) (L : Pipeline.LaunchFacts (nD := nD) (τ := τ) cfgs p) (Wa Wb : Dev nD → Valuation τ sig (Elt F))
    (hbody : ∀ c, BodyObligation (pdats m p c) (defs₀ (F := F)) Variants.none () Set.univ)
    (howed : ∀ c t, (pdats m p c).owed t = 0)
    (hshare : ∀ c w, (pdats m p c).share w = fullShare)
    (hA : ∀ c w, (pdats m p c).A w = toV Wa c (Pipeline.arrRef (Pipeline.pin (pcfgs (F := F)) adm p).spec w))
    (hrec : ∀ c, (pdats m p c).recorded 0 = Set.univ)
    (hF : ∀ c w, (pdats m p c).arrAt w (Pipeline.pin (pcfgs (F := F)) adm p).N = toV Wb c (Pipeline.arrRef (Pipeline.pin (pcfgs (F := F)) adm p).spec w))
    (hrest : ∀ c, ∀ b, b ∉ Finset.univ.image (Pipeline.arrRef (Pipeline.pin (pcfgs (F := F)) adm p).spec) → toV Wb c b = toV Wa c b)
    (hfirst : ∀ c, (Pipeline.ΦA (Pipeline.pin (pcfgs (F := F)) adm p).spec c : sProp 𝕄) ⊢ (pdats m p c).Φ 0)
    (hlast : ∀ c, (pdats m p c).Φ (Fin.last _) ⊢ (Pipeline.ΦA (Pipeline.pin (pcfgs (F := F)) adm p).spec c : sProp 𝕄)) :
    Pipeline.RegionSeg (pcfgs (F := F)) adm (pdats m) () defs₀ Variants.none lvSet lvOf p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ lvSet lvOf p howed
  pre c := iprop(StableHlo.held (c : Thread nD τ) (Pipeline.ucRefs τ sig) (Wa c) ∗ rideR c)
  post c := iprop(StableHlo.held (c : Thread nD τ) (Pipeline.ucRefs τ sig) (Wb c) ∗ rideR c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (toV Wa c)
  hentry c := by
    rw [Pipeline.ownSems0_none]
    have hsplit := Pipeline.arrays_of_unscopedBufs (p := p) (pcfgs (F := F)) adm (pdats m) L.win L.arr_whole c
      (hshare c) (toV Wa c) (hA c)
    have hrec := hrec c
    have how : (pdats m p c).owed 0 = 0 := howed c 0
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how]
      icases HO with ⟨%W, HO⟩; iexists W; isplitr
      · ipureintro; exact fun _ _ => Or.inl (hrec ▸ trivial)
      iexact HO
    isplitl [Hp]; · iexact Hp
    iexact Hrest
  hin c := by
    refine BIBase.Entails.trans ?_ (hfirst c)
    unfold Pipeline.ΦA
    iintro ⟨Hp, -, Hr⟩
    isplitl [Hr]; · iexact Hr
    iexact Hp
  hout c := by
    rw [Pipeline.ownSems0_none]
    refine BIBase.Entails.trans (hlast c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) (hshare c)
      (toV Wa c) (toV Wb c) ((pdats m p c).arrAt · (Pipeline.pin (pcfgs (F := F)) adm p).N) (hF c) (hrest c)
    have how : (pdats m p c).owed (Fin.last (Pipeline.pin (pcfgs (F := F)) adm p).N) = 0 := howed c _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how]
    icases HO with ⟨%W, -, HO⟩; iexists W; iexact HO

def reg0 := mkReg m 0 launch0 (W0 m) (W1 m) (body_obligation0 (V0 m)) (owed0 (V0 m)) (share0 (V0 m)) (A_eq0 (V0 m)) (fun c => recorded0 (V0 m) c 0) (hF0 m) (hrest0 m) (Phi0_first (V0 m)) (Phi0_last (V0 m))

def reg1 := mkReg m 1 launch1 (W1 m) (W2 m) (body_obligation1 (V1 m)) (owed1 (V1 m)) (share1 (V1 m)) (A_eq1 (V1 m)) (fun c => recorded1 (V1 m) c 0) (hF1 m) (hrest1 m) (Phi1_first (V1 m)) (Phi1_last (V1 m))

def reg2 := mkReg m 2 launch2 (W2 m) (W3 m) (body_obligation2 (V2 m)) (owed2 (V2 m)) (share2 (V2 m)) (A_eq2 (V2 m)) (fun c => recorded2 (V2 m) c 0) (hF2 m) (hrest2 m) (Phi2_first (V2 m)) (Phi2_last (V2 m))

def reg3 := mkReg m 3 launch3 (W3 m) (W4 m) (body_obligation3 (V3 m)) (owed3 (V3 m)) (share3 (V3 m)) (A_eq3 (V3 m)) (fun c => recorded3 (V3 m) c 0) (hF3 m) (hrest3 m) (Phi3_first (V3 m)) (Phi3_last (V3 m))

def reg4 := mkReg m 4 launch4 (W4 m) (W5 m) (body_obligation4 (V4 m)) (owed4 (V4 m)) (share4 (V4 m)) (A_eq4 (V4 m)) (fun c => recorded4 (V4 m) c 0) (hF4 m) (hrest4 m) (Phi4_first (V4 m)) (Phi4_last (V4 m))

abbrev hseg5 : Pipeline.HostSeg (Name := ℕ) (U := UR sig nD τ) (pcfgs (F := F)) defs₀ Variants.none lvSet lvOf :=
  Pipeline.HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (W5 m) rideR

abbrev segs : List (Pipeline.Seg (pcfgs (F := F)) adm (pdats m) () defs₀ Variants.none lvSet lvOf) :=
  [ .region (reg0 m), .region (reg1 m), .region (reg2 m), .region (reg3 m), .region (reg4 m), .host (hseg5 m) ]

theorem main_run (c : Dev nD) : main (F := F) c = Pipeline.Seg.run (segs m) :=
  main_segs adm (pdats m) () Variants.none lvSet lvOf (hseg5 m) (reg0 m) (reg1 m) (reg2 m) (reg3 m) (reg4 m) rfl c

abbrev lastT (c : Dev nD) : sProp 𝕄 := iprop(StableHlo.held (c : Thread nD τ) (Pipeline.ucRefs τ sig) (W6 m c) ∗ ∃ r, prngReg c r)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ Variants.none lvSet lvOf m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rideR c)) (Tₙ := lastT m)
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ rideR c)
          ⊢ (iprop(lastT m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach lvSet lvOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c =>
    ⟨(hr c _ (mem_uc main_arg0 (by decide))).trans (W6_main_arg0 m c),
     (hr c _ (mem_uc main_arg1 (by decide))).trans (W6_main_arg1 m c)⟩) (run_all m ρ)

end Cert.KernelIdeal.Hand

end
-- ==== Proof.KI.R0Pcs.lean ====
import proofs.«158091_j65489661329953_1_alg».proof.Proof.KI.R0RunA
import proofs.«158091_j65489661329953_1_alg».proof.Proof.KI.R0RunB
import proofs.«158091_j65489661329953_1_alg».proof.Proof.KI.R0RunC
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)

theorem canon0_A_0 (hc0 : cond0_0 i) (hc1 : ¬cond0_1 i) (x0 : Vec F S1024x1024 .f32) :
    View.canon (kernelRun0_A c i arg1 harg1 arg2 harg2 arg3 harg3 arg4 harg4 arg5 harg5 hc0 hc1 x0).1 = k0_pay3 x0 (k0_pay1 (F := F)) := by
  unfold kernelRun0_A
  dsimp only
  try sl_unfold_words
  rw [View.canon_cons_unit_zero hz2, View.readCov_unit_zero (S := S1x1024) _ hz2]
  simp only [View.readAt_eq_ld, harg1.read_unread, harg4.read_unread, harg5.read_unread, View.ld_unit_zero (S := S1024x1024) hz2, View.ld_unit_zero (S := S1x1024) hz2]

theorem canon0_A_1 (hc0 : cond0_0 i) (hc1 : ¬cond0_1 i) (x0 : Vec F S1024x1024 .f32) :
    View.canon (kernelRun0_A c i arg1 harg1 arg2 harg2 arg3 harg3 arg4 harg4 arg5 harg5 hc0 hc1 x0).2.1 = k0_pay4 x0 (k0_pay2 (F := F)) := by
  unfold kernelRun0_A
  dsimp only
  try sl_unfold_words
  rw [View.canon_cons_unit_zero hz2, View.readCov_unit_zero (S := S1x1024) _ hz2]
  simp only [View.readAt_eq_ld, harg1.read_unread, harg4.read_unread, harg5.read_unread, View.ld_unit_zero (S := S1024x1024) hz2, View.ld_unit_zero (S := S1x1024) hz2]

theorem canon0_B_0 (hc0 : ¬cond0_0 i) (hc1 : ¬cond0_1 i) (x0 : Vec F S1024x1024 .f32) (xs0 xs1 : Vec F S1x1024 .f32) :
    View.canon (kernelRun0_B c i arg1 harg1 arg2 harg2 arg3 harg3 arg4 harg4 arg5 harg5 hc0 hc1 x0 xs0 xs1).1 = k0_pay3 x0 xs0 := by
  unfold kernelRun0_B
  dsimp only
  try sl_unfold_words
  rw [View.canon_unit_zero hz2]
  simp only [View.readAt_eq_ld, harg1.read_unread, harg4.read_unread, harg5.read_unread, View.ld_unit_zero (S := S1024x1024) hz2, View.ld_unit_zero (S := S1x1024) hz2]

theorem canon0_B_1 (hc0 : ¬cond0_0 i) (hc1 : ¬cond0_1 i) (x0 : Vec F S1024x1024 .f32) (xs0 xs1 : Vec F S1x1024 .f32) :
    View.canon (kernelRun0_B c i arg1 harg1 arg2 harg2 arg3 harg3 arg4 harg4 arg5 harg5 hc0 hc1 x0 xs0 xs1).2.1 = k0_pay4 x0 xs1 := by
  unfold kernelRun0_B
  dsimp only
  try sl_unfold_words
  rw [View.canon_unit_zero hz2]
  simp only [View.readAt_eq_ld, harg1.read_unread, harg4.read_unread, harg5.read_unread, View.ld_unit_zero (S := S1024x1024) hz2, View.ld_unit_zero (S := S1x1024) hz2]

theorem canon0_C_1 (hc0 : ¬cond0_0 i) (hc1 : cond0_1 i) (x0 : Vec F S1024x1024 .f32) (xs0 xs1 : Vec F S1x1024 .f32) :
    View.canon (kernelRun0_C c i arg1 harg1 arg2 harg2 arg3 harg3 arg4 harg4 arg5 harg5 hc0 hc1 x0 xs0 xs1).1 = k0_pay5 (k0_pay3 x0 xs0) := by
  unfold kernelRun0_C
  dsimp only
  try sl_unfold_words
  rw [View.canon_unit_zero hz2, View.readCov_unit_zero (S := S1x1024) _ hz2]
  simp only [View.readAt_eq_ld, harg1.read_unread, harg4.read_unread, harg5.read_unread, View.ld_unit_zero (S := S1024x1024) hz2, View.ld_unit_zero (S := S1x1024) hz2]

theorem canon0_C_2 (hc0 : ¬cond0_0 i) (hc1 : cond0_1 i) (x0 : Vec F S1024x1024 .f32) (xs0 xs1 : Vec F S1x1024 .f32) :
    View.canon (kernelRun0_C c i arg1 harg1 arg2 harg2 arg3 harg3 arg4 harg4 arg5 harg5 hc0 hc1 x0 xs0 xs1).2.1 = k0_pay6 (k0_pay3 x0 xs0) (k0_pay4 x0 xs1) := by
  unfold kernelRun0_C
  dsimp only
  try sl_unfold_words
  rw [View.canon_unit_zero hz2, View.readCov_unit_zero (S := S1x1024) _ hz2, View.readCov_unit_zero (S := S1x1024) _ hz2]
  simp only [View.readAt_eq_ld, harg1.read_unread, harg4.read_unread, harg5.read_unread, View.ld_unit_zero (S := S1024x1024) hz2, View.ld_unit_zero (S := S1x1024) hz2]

theorem canon0_C_s0 (hc0 : ¬cond0_0 i) (hc1 : cond0_1 i) (x0 : Vec F S1024x1024 .f32) (xs0 xs1 : Vec F S1x1024 .f32) :
    View.canon (kernelRun0_C c i arg1 harg1 arg2 harg2 arg3 harg3 arg4 harg4 arg5 harg5 hc0 hc1 x0 xs0 xs1).2.2.1 = k0_pay3 x0 xs0 := by
  unfold kernelRun0_C
  dsimp only
  try sl_unfold_words
  rw [View.canon_unit_zero hz2]
  simp only [View.readAt_eq_ld, harg1.read_unread, harg4.read_unread, harg5.read_unread, View.ld_unit_zero (S := S1024x1024) hz2, View.ld_unit_zero (S := S1x1024) hz2]

theorem canon0_C_s1 (hc0 : ¬cond0_0 i) (hc1 : cond0_1 i) (x0 : Vec F S1024x1024 .f32) (xs0 xs1 : Vec F S1x1024 .f32) :
    View.canon (kernelRun0_C c i arg1 harg1 arg2 harg2 arg3 harg3 arg4 harg4 arg5 harg5 hc0 hc1 x0 xs0 xs1).2.2.2.1 = k0_pay4 x0 xs1 := by
  unfold kernelRun0_C
  dsimp only
  try sl_unfold_words
  rw [View.canon_unit_zero hz2]
  simp only [View.readAt_eq_ld, harg1.read_unread, harg4.read_unread, harg5.read_unread, View.ld_unit_zero (S := S1024x1024) hz2, View.ld_unit_zero (S := S1x1024) hz2]

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SA : Shape := ⟨2, ![8192, 1024]⟩

def n : EReal := Ideal.ofBits .f32 0x46000000#32

def nm1 : EReal := Ideal.ofBits .f32 0x45FFF800#32

def nm1R : EReal := n - FloatOps.sitofp (F := Ideal) .f32 (1#32 : BitVec 32)

def eps : EReal := Ideal.ofBits .f32 0x3727C5AC#32

def cnt : EReal := Ideal.ofBits .f32 0x48FFC000#32

def colSum (A : FVec Ideal SA .f32) (j : Fin 1024) : EReal := ∑ r : Fin 8192, A (ix2 r j)

def colSumSq (A : FVec Ideal SA .f32) (j : Fin 1024) : EReal := ∑ r : Fin 8192, A (ix2 r j) * A (ix2 r j)

def mean (A : FVec Ideal SA .f32) (j : Fin 1024) : EReal := Ideal.div (colSum A j) n

-- The variance as the kernel forms it: (Σ a² − n·μ·μ) / (n − 1).
def varK (A : FVec Ideal SA .f32) (j : Fin 1024) : EReal :=
  Ideal.div (colSumSq A j - n * mean A j * mean A j) nm1

-- The variance as the reference forms it: Σ (a − μ)² / (n − 1).
def varR (A : FVec Ideal SA .f32) (j : Fin 1024) : EReal :=
  Ideal.div (∑ r : Fin 8192, (A (ix2 r j) - mean A j) * (A (ix2 r j) - mean A j)) nm1R

def sdK (A : FVec Ideal SA .f32) (j : Fin 1024) : EReal := Ideal.sqrt (varK A j)

def sdR (A : FVec Ideal SA .f32) (j : Fin 1024) : EReal := Ideal.sqrt (varR A j)

-- An entry standardized by the mean and the deviation of its column.
def z (A : FVec Ideal SA .f32) (mu sd : Fin 1024 → EReal) (r : Fin 8192) (j : Fin 1024) : EReal :=
  Ideal.div (A (ix2 r j) - mu j) (sd j + eps)

-- The correlation of two columns: the mean over the rows of the product of their standardized entries.
def corr (A : FVec Ideal SA .f32) (mu sd : Fin 1024 → EReal) (a b : Fin 1024) : EReal :=
  Ideal.div (∑ r : Fin 8192, z A mu sd r a * z A mu sd r b) n

def tri (a b : Fin 1024) : EReal := if a.val < b.val then 1 else 0

-- The mean, over the column pairs a < b, of the squared difference of two correlation matrices.
def loss (cx cy : Fin 1024 → Fin 1024 → EReal) : EReal :=
  Ideal.div (∑ a : Fin 1024, ∑ b : Fin 1024, (cx a b - cy a b) * (cx a b - cy a b) * tri a b) cnt

def total (sd : FVec Ideal SA .f32 → Fin 1024 → EReal) (X Y : FVec Ideal SA .f32) : EReal :=
  loss (corr X (mean X) (sd X)) (corr Y (mean Y) (sd Y))

def totalK (X Y : FVec Ideal SA .f32) : EReal := total sdK X Y

def totalR (X Y : FVec Ideal SA .f32) : EReal := total sdR X Y

-- Every entry is a real number.
def Finite (A : FVec Ideal SA .f32) : Prop := ∀ i, ∃ x : ℝ, A i = (x : EReal)

end Cert.Spec

end
-- ==== Proof.KI.R0Pay.lean ====
import proofs.«158091_j65489661329953_1_alg».proof.Proof.Gen.KernelIdeal.Skeleton
import proofs.«158091_j65489661329953_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

theorem colReduce_apply (x : FVec Ideal S1024x1024 .f32) (h : S1024x1024.Reduces [0] S1024)
    (hφ : FKind.Formats .f32) (hacc : (0x00000000#32 : BitVec 32) = 0x00000000#32) (j : Fin 1024) :
    multiReduction (F := Ideal) .add [0] S1024 x 0x00000000#32 h hφ hacc (ix1 j)
      = ∑ i : Fin 1024, x (ix2 i j) := by
  refine (Ideal.multiReduction_add_single x 0x00000000#32 h hφ hacc (ix1 j)).trans ?_
  refine Finset.sum_congr rfl fun i _ => congrArg x ?_
  funext a
  match a with
  | ⟨0, _⟩ => rfl
  | ⟨1, _⟩ => rfl

theorem k0_pay1_apply (j : Fin 1024) : (k0_pay1 (F := Ideal)) (ix2 (0 : Fin 1) j) = 0 := by
  unfold k0_pay1
  rw [shapeCast_self]
  exact Ideal.ofBits_zero_f32

theorem k0_pay2_apply (j : Fin 1024) : (k0_pay2 (F := Ideal)) (ix2 (0 : Fin 1) j) = 0 := by
  unfold k0_pay2
  rw [shapeCast_self]
  exact Ideal.ofBits_zero_f32

theorem k0_pay3_apply (x : Vec Ideal S1024x1024 .f32) (s : Vec Ideal S1x1024 .f32) (j : Fin 1024) :
    k0_pay3 x s (ix2 (0 : Fin 1) j) = s (ix2 (0 : Fin 1) j) + ∑ i : Fin 1024, x (ix2 i j) := by
  unfold k0_pay3
  rw [shapeCast_self]
  refine (addf_apply _ _ _).trans ?_
  refine congrArg (s (ix2 (0 : Fin 1) j) + ·) ?_
  refine (shapeCast_a_1a_apply _ _ (0 : Fin 1) j).trans ?_
  exact colReduce_apply x _ _ _ j

theorem k0_pay4_apply (x : Vec Ideal S1024x1024 .f32) (q : Vec Ideal S1x1024 .f32) (j : Fin 1024) :
    k0_pay4 x q (ix2 (0 : Fin 1) j) = q (ix2 (0 : Fin 1) j) + ∑ i : Fin 1024, x (ix2 i j) * x (ix2 i j) := by
  unfold k0_pay4
  rw [shapeCast_self]
  refine (addf_apply _ _ _).trans ?_
  refine congrArg (q (ix2 (0 : Fin 1) j) + ·) ?_
  refine (shapeCast_a_1a_apply _ _ (0 : Fin 1) j).trans ?_
  exact colReduce_apply (mulf x x) _ _ _ j

theorem k0_pay5_apply (s : Vec Ideal S1x1024 .f32) (j : Fin 1024) :
    k0_pay5 s (ix2 (0 : Fin 1) j) = Ideal.div (s (ix2 (0 : Fin 1) j)) Cert.Spec.n := rfl

theorem k0_pay6_apply (s q : Vec Ideal S1x1024 .f32) (j : Fin 1024) :
    k0_pay6 s q (ix2 (0 : Fin 1) j)
      = Ideal.sqrt (Ideal.div (q (ix2 (0 : Fin 1) j)
          - Cert.Spec.n * (Ideal.div (s (ix2 (0 : Fin 1) j)) Cert.Spec.n) * (Ideal.div (s (ix2 (0 : Fin 1) j)) Cert.Spec.n))
          Cert.Spec.nm1) := rfl

end Cert.KernelIdeal.Hand

end
-- ==== Proof.Blocks.lean ====
import Mathlib.Algebra.BigOperators.Group.Finset.Basic
import Mathlib.Algebra.BigOperators.Fin
import Mathlib.Tactic.Linarith
import Mathlib.Tactic.Ring

open scoped BigOperators

namespace Cert.Spec

variable {M : Type*} [AddCommMonoid M]

def partialSum {N : ℕ} (B : ℕ) (f : Fin N → M) (k : ℕ) : M :=
  ∑ r : Fin N, if r.val < B * k then f r else 0

theorem partialSum_zero {N : ℕ} (B : ℕ) (f : Fin N → M) : partialSum B f 0 = 0 := by
  unfold partialSum
  refine Finset.sum_eq_zero fun r _ => ?_
  rw [if_neg (by simp)]

theorem partialSum_full {N : ℕ} (B : ℕ) (f : Fin N → M) (k : ℕ) (h : N ≤ B * k) :
    partialSum B f k = ∑ r : Fin N, f r := by
  unfold partialSum
  refine Finset.sum_congr rfl fun r _ => ?_
  rw [if_pos (lt_of_lt_of_le r.isLt h)]

theorem block_row_lt {N B k : ℕ} (h : B * (k + 1) ≤ N) (i : Fin B) : B * k + i.val < N := by
  have hi := i.isLt
  have : B * (k + 1) = B * k + B := by ring
  omega

theorem block_sum_eq {N : ℕ} (B : ℕ) (f : Fin N → M) (k : ℕ) (h : B * (k + 1) ≤ N) :
    ∑ i : Fin B, f ⟨B * k + i.val, block_row_lt h i⟩
      = ∑ r : Fin N, if B * k ≤ r.val ∧ r.val < B * (k + 1) then f r else 0 := by
  have hB : B * (k + 1) = B * k + B := by ring
  rw [← Finset.sum_filter]
  refine Finset.sum_bij (fun i _ => (⟨B * k + i.val, block_row_lt h i⟩ : Fin N)) ?_ ?_ ?_ ?_
  · intro i _
    have hi := i.isLt
    simp only [Finset.mem_filter, Finset.mem_univ, true_and]
    constructor <;> omega
  · intro a _ b _ hab
    have := congrArg Fin.val hab
    simp only at this
    exact Fin.ext (by omega)
  · intro r hr
    simp only [Finset.mem_filter, Finset.mem_univ, true_and] at hr
    refine ⟨⟨r.val - B * k, by omega⟩, Finset.mem_univ _, ?_⟩
    exact Fin.ext (by simp only; omega)
  · intro i _
    rfl

theorem partialSum_succ {N : ℕ} (B : ℕ) (f : Fin N → M) (k : ℕ) (h : B * (k + 1) ≤ N) :
    partialSum B f (k + 1) = partialSum B f k + ∑ i : Fin B, f ⟨B * k + i.val, block_row_lt h i⟩ := by
  have hB : B * (k + 1) = B * k + B := by ring
  rw [block_sum_eq B f k h]
  unfold partialSum
  rw [← Finset.sum_add_distrib]
  refine Finset.sum_congr rfl fun r _ => ?_
  by_cases h1 : r.val < B * k
  · rw [if_pos h1, if_pos (by omega), if_neg (by omega), add_zero]
  · by_cases h2 : r.val < B * (k + 1)
    · rw [if_neg h1, if_pos h2, if_pos ⟨by omega, h2⟩, zero_add]
    · rw [if_neg h1, if_neg h2, if_neg (fun hc => h2 hc.2), add_zero]

theorem row_lt_1024 {k : ℕ} (hk : k < 8) (i : Fin 1024) : 1024 * k + i.val < 8192 :=
  block_row_lt (N := 8192) (B := 1024) (k := k) (by omega) i

theorem row_lt_512 {k : ℕ} (hk : k < 16) (i : Fin 512) : 512 * k + i.val < 8192 :=
  block_row_lt (N := 8192) (B := 512) (k := k) (by omega) i

theorem partialSum_succ_1024 (f : Fin 8192 → M) (k : ℕ) (hk : k < 8) :
    partialSum 1024 f (k + 1) = partialSum 1024 f k + ∑ i : Fin 1024, f ⟨1024 * k + i.val, row_lt_1024 hk i⟩ :=
  partialSum_succ 1024 f k (by omega)

theorem partialSum_full_1024 (f : Fin 8192 → M) : partialSum 1024 f 8 = ∑ r : Fin 8192, f r :=
  partialSum_full 1024 f 8 (by norm_num)

theorem partialSum_succ_512 (f : Fin 8192 → M) (k : ℕ) (hk : k < 16) :
    partialSum 512 f (k + 1) = partialSum 512 f k + ∑ i : Fin 512, f ⟨512 * k + i.val, row_lt_512 hk i⟩ :=
  partialSum_succ 512 f k (by omega)

theorem partialSum_full_512 (f : Fin 8192 → M) : partialSum 512 f 16 = ∑ r : Fin 8192, f r :=
  partialSum_full 512 f 16 (by norm_num)

end Cert.Spec
-- ==== Proof.KI.R0Acc.lean ====
import proofs.«158091_j65489661329953_1_alg».proof.Proof.KI.R0Pay
import proofs.«158091_j65489661329953_1_alg».proof.Proof.Blocks

noncomputable section

open scoped BigOperators

namespace Cert.KernelIdeal.Hand

open Cert.KernelIdeal Cert.KernelIdeal.Gen Idealize.ShloMosaic Idealize.ShloMosaic.ValueIdx
open Cert.Spec (SA partialSum)

-- A block of 1024 rows takes the partial column sum from k blocks to k + 1.
theorem sum_step (A : FVec Ideal SA .f32) (x : Vec Ideal S1024x1024 .f32) (s : Vec Ideal S1x1024 .f32)
    (k : ℕ) (hk : k < 8)
    (hx : ∀ i j : Fin 1024, x (ix2 i j) = A (ix2 (⟨1024 * k + i.val, Cert.Spec.row_lt_1024 hk i⟩ : Fin 8192) j))
    (j : Fin 1024)
    (hs : s (ix2 (0 : Fin 1) j) = partialSum 1024 (fun r : Fin 8192 => A (ix2 r j)) k) :
    k0_pay3 x s (ix2 (0 : Fin 1) j) = partialSum 1024 (fun r : Fin 8192 => A (ix2 r j)) (k + 1) := by
  rw [k0_pay3_apply, hs, Cert.Spec.partialSum_succ_1024 _ k hk]
  exact congrArg _ (Finset.sum_congr rfl fun i _ => hx i j)

theorem sq_step (A : FVec Ideal SA .f32) (x : Vec Ideal S1024x1024 .f32) (q : Vec Ideal S1x1024 .f32)
    (k : ℕ) (hk : k < 8)
    (hx : ∀ i j : Fin 1024, x (ix2 i j) = A (ix2 (⟨1024 * k + i.val, Cert.Spec.row_lt_1024 hk i⟩ : Fin 8192) j))
    (j : Fin 1024)
    (hq : q (ix2 (0 : Fin 1) j) = partialSum 1024 (fun r : Fin 8192 => A (ix2 r j) * A (ix2 r j)) k) :
    k0_pay4 x q (ix2 (0 : Fin 1) j) = partialSum 1024 (fun r : Fin 8192 => A (ix2 r j) * A (ix2 r j)) (k + 1) := by
  rw [k0_pay4_apply, hq, Cert.Spec.partialSum_succ_1024 _ k hk]
  exact congrArg _ (Finset.sum_congr rfl fun i _ => by rw [hx i j])

theorem sum_reset (A : FVec Ideal SA .f32) (j : Fin 1024) :
    (k0_pay1 (F := Ideal)) (ix2 (0 : Fin 1) j) = partialSum 1024 (fun r : Fin 8192 => A (ix2 r j)) 0 := by
  rw [k0_pay1_apply, Cert.Spec.partialSum_zero]

theorem sq_reset (A : FVec Ideal SA .f32) (j : Fin 1024) :
    (k0_pay2 (F := Ideal)) (ix2 (0 : Fin 1) j) = partialSum 1024 (fun r : Fin 8192 => A (ix2 r j) * A (ix2 r j)) 0 := by
  rw [k0_pay2_apply, Cert.Spec.partialSum_zero]

-- After all eight blocks the partial sum is the whole column sum, and its quotient by n the mean.
theorem mean_final (A : FVec Ideal SA .f32) (s : Vec Ideal S1x1024 .f32) (j : Fin 1024)
    (hs : s (ix2 (0 : Fin 1) j) = partialSum 1024 (fun r : Fin 8192 => A (ix2 r j)) 8) :
    k0_pay5 s (ix2 (0 : Fin 1) j) = Cert.Spec.mean A j := by
  rw [k0_pay5_apply, hs, Cert.Spec.partialSum_full_1024]
  rfl

theorem sd_final (A : FVec Ideal SA .f32) (s q : Vec Ideal S1x1024 .f32) (j : Fin 1024)
    (hs : s (ix2 (0 : Fin 1) j) = partialSum 1024 (fun r : Fin 8192 => A (ix2 r j)) 8)
    (hq : q (ix2 (0 : Fin 1) j) = partialSum 1024 (fun r : Fin 8192 => A (ix2 r j) * A (ix2 r j)) 8) :
    k0_pay6 s q (ix2 (0 : Fin 1) j) = Cert.Spec.sdK A j := by
  rw [k0_pay6_apply, hs, hq, Cert.Spec.partialSum_full_1024, Cert.Spec.partialSum_full_1024]
  rfl

end Cert.KernelIdeal.Hand

end
-- ==== Proof.KI.R0Blk.lean ====
import proofs.«158091_j65489661329953_1_alg».proof.Proof.KI.R0Runs
import proofs.«158091_j65489661329953_1_alg».proof.Proof.Spec
import proofs.«158091_j65489661329953_1_alg».proof.Proof.Blocks
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Spec (SA)

variable (V : (c : Dev nD) → (b : Ref sig .tc) → Buf (Elt Ideal) ((c : Thread nD τ).loc b))

theorem lt8 (t : Fin cfg0.N) : t.val < 8 := lt_of_lt_of_eq t.isLt (show cfg0.N = 8 from N_0)

theorem win0_0_index : ∀ t : Fin cfg0.N, win0_0.index t 0 = t.val ∧ win0_0.index t 1 = 0 :=
  (by decide +kernel : ∀ t : Fin grid0.N, win0_0.index t 0 = t.val ∧ win0_0.index t 1 = 0)

theorem iblk0_apply (c : Dev nD) (t : Fin cfg0.N) (i j : Fin 1024) :
    (iblk0 V c 0 t : Vec Ideal S1024x1024 .f32) (ix2 i j)
      = (V c main_arg0 : FVec Ideal SA .f32)
          (ix2 (⟨1024 * t.val + i.val, Cert.Spec.row_lt_1024 (lt8 t) i⟩ : Fin 8192) j) := by
  unfold iblk0
  rw [View.read_apply]
  show V c main_arg0 _ = V c main_arg0 _
  refine congrArg (V c main_arg0) ?_
  funext a
  apply Fin.ext
  match a with
  | ⟨0, _⟩ =>
    show win0_0.index t 0 * 1024 + 1 * i.val = 1024 * t.val + i.val
    rw [(win0_0_index t).1]; omega
  | ⟨1, _⟩ =>
    show win0_0.index t 1 * 1024 + 1 * j.val = j.val
    rw [(win0_0_index t).2]; omega

end Cert.KernelIdeal.Hand

end
-- ==== Proof.KI.R0Val.lean ====
import proofs.«158091_j65489661329953_1_alg».proof.Proof.KI.R0Dat
import proofs.«158091_j65489661329953_1_alg».proof.Proof.KI.R0Pcs
import proofs.«158091_j65489661329953_1_alg».proof.Proof.KI.R0Acc
import proofs.«158091_j65489661329953_1_alg».proof.Proof.KI.R0Blk
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (SA partialSum)

section pieces

variable {F : FTy → Type} [FloatOps F]
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)

theorem sout0_A_0_eq (hc0 : cond0_0 i) (hc1 : ¬cond0_1 i) (x0 : Vec F S1024x1024 .f32) :
    sout0_A_0 c i arg1 harg1 arg2 harg2 arg3 harg3 arg4 harg4 arg5 harg5 hc0 hc1 x0 = k0_pay3 x0 (k0_pay1 (F := F)) := by
  unfold sout0_A_0
  rw [View.read_writes_eq_canon _ _ _ (scover0_A_0 c i arg1 harg1 arg2 harg2 arg3 harg3 arg4 harg4 arg5 harg5 hc0 hc1 x0)]
  exact canon0_A_0 c i arg1 harg1 arg2 harg2 arg3 harg3 arg4 harg4 arg5 harg5 hc0 hc1 x0

theorem sout0_A_1_eq (hc0 : cond0_0 i) (hc1 : ¬cond0_1 i) (x0 : Vec F S1024x1024 .f32) :
    sout0_A_1 c i arg1 harg1 arg2 harg2 arg3 harg3 arg4 harg4 arg5 harg5 hc0 hc1 x0 = k0_pay4 x0 (k0_pay2 (F := F)) := by
  unfold sout0_A_1
  rw [View.read_writes_eq_canon _ _ _ (scover0_A_1 c i arg1 harg1 arg2 harg2 arg3 harg3 arg4 harg4 arg5 harg5 hc0 hc1 x0)]
  exact canon0_A_1 c i arg1 harg1 arg2 harg2 arg3 harg3 arg4 harg4 arg5 harg5 hc0 hc1 x0

theorem sout0_B_0_eq (hc0 : ¬cond0_0 i) (hc1 : ¬cond0_1 i) (x0 : Vec F S1024x1024 .f32) (xs0 xs1 : Vec F S1x1024 .f32) :
    sout0_B_0 c i arg1 harg1 arg2 harg2 arg3 harg3 arg4 harg4 arg5 harg5 hc0 hc1 x0 xs0 xs1 = k0_pay3 x0 xs0 := by
  unfold sout0_B_0
  rw [View.read_writes_eq_canon _ _ _ (scover0_B_0 c i arg1 harg1 arg2 harg2 arg3 harg3 arg4 harg4 arg5 harg5 hc0 hc1 x0 xs0 xs1)]
  exact canon0_B_0 c i arg1 harg1 arg2 harg2 arg3 harg3 arg4 harg4 arg5 harg5 hc0 hc1 x0 xs0 xs1

theorem sout0_B_1_eq (hc0 : ¬cond0_0 i) (hc1 : ¬cond0_1 i) (x0 : Vec F S1024x1024 .f32) (xs0 xs1 : Vec F S1x1024 .f32) :
    sout0_B_1 c i arg1 harg1 arg2 harg2 arg3 harg3 arg4 harg4 arg5 harg5 hc0 hc1 x0 xs0 xs1 = k0_pay4 x0 xs1 := by
  unfold sout0_B_1
  rw [View.read_writes_eq_canon _ _ _ (scover0_B_1 c i arg1 harg1 arg2 harg2 arg3 harg3 arg4 harg4 arg5 harg5 hc0 hc1 x0 xs0 xs1)]
  exact canon0_B_1 c i arg1 harg1 arg2 harg2 arg3 harg3 arg4 harg4 arg5 harg5 hc0 hc1 x0 xs0 xs1

theorem sout0_C_0_eq (hc0 : ¬cond0_0 i) (hc1 : cond0_1 i) (x0 : Vec F S1024x1024 .f32) (xs0 xs1 : Vec F S1x1024 .f32) :
    sout0_C_0 c i arg1 harg1 arg2 harg2 arg3 harg3 arg4 harg4 arg5 harg5 hc0 hc1 x0 xs0 xs1 = k0_pay3 x0 xs0 := by
  unfold sout0_C_0
  rw [View.read_writes_eq_canon _ _ _ (scover0_C_0 c i arg1 harg1 arg2 harg2 arg3 harg3 arg4 harg4 arg5 harg5 hc0 hc1 x0 xs0 xs1)]
  exact canon0_C_s0 c i arg1 harg1 arg2 harg2 arg3 harg3 arg4 harg4 arg5 harg5 hc0 hc1 x0 xs0 xs1

theorem sout0_C_1_eq (hc0 : ¬cond0_0 i) (hc1 : cond0_1 i) (x0 : Vec F S1024x1024 .f32) (xs0 xs1 : Vec F S1x1024 .f32) :
    sout0_C_1 c i arg1 harg1 arg2 harg2 arg3 harg3 arg4 harg4 arg5 harg5 hc0 hc1 x0 xs0 xs1 = k0_pay4 x0 xs1 := by
  unfold sout0_C_1
  rw [View.read_writes_eq_canon _ _ _ (scover0_C_1 c i arg1 harg1 arg2 harg2 arg3 harg3 arg4 harg4 arg5 harg5 hc0 hc1 x0 xs0 xs1)]
  exact canon0_C_s1 c i arg1 harg1 arg2 harg2 arg3 harg3 arg4 harg4 arg5 harg5 hc0 hc1 x0 xs0 xs1

theorem out0_C_1_eq (hc0 : ¬cond0_0 i) (hc1 : cond0_1 i) (x0 : Vec F S1024x1024 .f32) (xs0 xs1 : Vec F S1x1024 .f32) :
    out0_C_1 c i arg1 harg1 arg2 harg2 arg3 harg3 arg4 harg4 arg5 harg5 hc0 hc1 x0 xs0 xs1 = k0_pay5 (k0_pay3 x0 xs0) := by
  unfold out0_C_1
  rw [View.read_writes_eq_canon _ _ _ (cover0_C_1 c i arg1 harg1 arg2 harg2 arg3 harg3 arg4 harg4 arg5 harg5 hc0 hc1 x0 xs0 xs1)]
  exact canon0_C_1 c i arg1 harg1 arg2 harg2 arg3 harg3 arg4 harg4 arg5 harg5 hc0 hc1 x0 xs0 xs1

theorem out0_C_2_eq (hc0 : ¬cond0_0 i) (hc1 : cond0_1 i) (x0 : Vec F S1024x1024 .f32) (xs0 xs1 : Vec F S1x1024 .f32) :
    out0_C_2 c i arg1 harg1 arg2 harg2 arg3 harg3 arg4 harg4 arg5 harg5 hc0 hc1 x0 xs0 xs1 = k0_pay6 (k0_pay3 x0 xs0) (k0_pay4 x0 xs1) := by
  unfold out0_C_2
  rw [View.read_writes_eq_canon _ _ _ (cover0_C_2 c i arg1 harg1 arg2 harg2 arg3 harg3 arg4 harg4 arg5 harg5 hc0 hc1 x0 xs0 xs1)]
  exact canon0_C_2 c i arg1 harg1 arg2 harg2 arg3 harg3 arg4 harg4 arg5 harg5 hc0 hc1 x0 xs0 xs1

end pieces

variable (V : (c : Dev nD) → (b : Ref sig .tc) → Buf (Elt Ideal) ((c : Thread nD τ).loc b))

abbrev arr0 (c : Dev nD) : FVec Ideal SA .f32 := V c main_arg0

theorem acc0 (c : Dev nD) : ∀ (n : ℕ) (hn : n < cfg0.N) (j : Fin 1024),
    ((outsAt0 V c n hn).2.2.1 : Vec Ideal S1x1024 .f32) (ix2 (0 : Fin 1) j)
        = partialSum 1024 (fun r : Fin 8192 => arr0 V c (ix2 r j)) (n + 1)
      ∧ ((outsAt0 V c n hn).2.2.2 : Vec Ideal S1x1024 .f32) (ix2 (0 : Fin 1) j)
        = partialSum 1024 (fun r : Fin 8192 => arr0 V c (ix2 r j) * arr0 V c (ix2 r j)) (n + 1)
  | 0, hn, j => by
    rw [show outsAt0 V c 0 hn = _ from outsAt0_A V c ⟨0, hn⟩ (Nat.zero_mod _) (by show ¬(0 % 8 = 7); decide)]
    dsimp only [atPt0]
    rw [sout0_A_0_eq, sout0_A_1_eq]
    exact ⟨sum_step (arr0 V c) _ _ 0 (by omega) (fun i j => iblk0_apply V c ⟨0, hn⟩ i j) j (sum_reset (arr0 V c) j),
      sq_step (arr0 V c) _ _ 0 (by omega) (fun i j => iblk0_apply V c ⟨0, hn⟩ i j) j (sq_reset (arr0 V c) j)⟩
  | n + 1, hn, j => by
    have hN : n + 1 < 8 := lt_of_lt_of_eq hn (show cfg0.N = 8 from N_0)
    obtain ⟨ihs, ihq⟩ := acc0 c n (Nat.lt_of_succ_lt hn) j
    have h0 : ¬(n + 1) % 8 = 0 := by omega
    by_cases h1 : (n + 1) % 8 = 7
    · rw [show outsAt0 V c (n + 1) hn = _ from outsAt0_C V c ⟨n + 1, hn⟩ h0 h1]
      dsimp only [atPt0]
      rw [sout0_C_0_eq, sout0_C_1_eq]
      exact ⟨sum_step (arr0 V c) _ _ (n + 1) hN (fun i j => iblk0_apply V c ⟨n + 1, hn⟩ i j) j ihs,
        sq_step (arr0 V c) _ _ (n + 1) hN (fun i j => iblk0_apply V c ⟨n + 1, hn⟩ i j) j ihq⟩
    · rw [show outsAt0 V c (n + 1) hn = _ from outsAt0_B V c ⟨n + 1, hn⟩ h0 h1]
      dsimp only [atPt0]
      rw [sout0_B_0_eq, sout0_B_1_eq]
      exact ⟨sum_step (arr0 V c) _ _ (n + 1) hN (fun i j => iblk0_apply V c ⟨n + 1, hn⟩ i j) j ihs,
        sq_step (arr0 V c) _ _ (n + 1) hN (fun i j => iblk0_apply V c ⟨n + 1, hn⟩ i j) j ihq⟩

abbrev meanRow (c : Dev nD) : Buf (Elt Ideal) ((c : Thread nD τ).loc main_v0_0) :=
  fun i : S1x1024.Idx => Cert.Spec.mean (arr0 V c) (i 1)

abbrev sdRow (c : Dev nD) : Buf (Elt Ideal) ((c : Thread nD τ).loc main_v0_1) :=
  fun i : S1x1024.Idx => Cert.Spec.sdK (arr0 V c) (i 1)

theorem outs_last (c : Dev nD) (t : Fin cfg0.N) (ht : t.val % 8 = 7) :
    (outsAt0 V c t.val t.isLt).1 = meanRow V c ∧ (outsAt0 V c t.val t.isLt).2.1 = sdRow V c := by
  have hlt := lt8 t
  have h7 : t.val = 7 := by omega
  rw [outsAt0_C V c t (by omega) ht]
  dsimp only [atPt0]
  rw [out0_C_1_eq, out0_C_2_eq]
  have hprev := acc0 V c (t.val - 1) (Nat.lt_of_le_of_lt (Nat.sub_le _ _) t.isLt)
  generalize outsAt0 V c (t.val - 1) (Nat.lt_of_le_of_lt (Nat.sub_le _ _) t.isLt) = prev at hprev ⊢
  rw [show t.val - 1 + 1 = t.val from by omega] at hprev
  have hs : ∀ j : Fin 1024, k0_pay3 (iblk0 V c 0 t) prev.2.2.1 (ix2 (0 : Fin 1) j)
      = partialSum 1024 (fun r : Fin 8192 => arr0 V c (ix2 r j)) 8 := fun j => by
    have e := sum_step (arr0 V c) _ _ t.val hlt (fun i j => iblk0_apply V c t i j) j (hprev j).1
    rw [h7] at e
    exact e
  have hq : ∀ j : Fin 1024, k0_pay4 (iblk0 V c 0 t) prev.2.2.2 (ix2 (0 : Fin 1) j)
      = partialSum 1024 (fun r : Fin 8192 => arr0 V c (ix2 r j) * arr0 V c (ix2 r j)) 8 := fun j => by
    have e := sq_step (arr0 V c) _ _ t.val hlt (fun i j => iblk0_apply V c t i j) j (hprev j).2
    rw [h7] at e
    exact e
  generalize k0_pay3 (iblk0 V c 0 t) prev.2.2.1 = s at hs ⊢
  generalize k0_pay4 (iblk0 V c 0 t) prev.2.2.2 = q at hq ⊢
  refine ⟨funext fun i => ?_, funext fun i => ?_⟩
  · obtain ⟨u, j, rfl⟩ : ∃ (u : Fin 1) (j : Fin 1024), i = ix2 u j := ⟨i 0, i 1, eq_ix2 i⟩
    obtain rfl : u = 0 := Subsingleton.elim _ _
    exact mean_final (arr0 V c) s j (hs j)
  · obtain ⟨u, j, rfl⟩ : ∃ (u : Fin 1) (j : Fin 1024), i = ix2 u j := ⟨i 0, i 1, eq_ix2 i⟩
    obtain rfl : u = 0 := Subsingleton.elim _ _
    exact sd_final (arr0 V c) s q j (hs j) (hq j)

theorem win0_1_index : ∀ t : Fin cfg0.N, win0_1.index t 0 = 0 ∧ win0_1.index t 1 = 0 :=
  (by decide +kernel : ∀ t : Fin grid0.N, win0_1.index t 0 = 0 ∧ win0_1.index t 1 = 0)

theorem win0_2_index : ∀ t : Fin cfg0.N, win0_2.index t 0 = 0 ∧ win0_2.index t 1 = 0 :=
  (by decide +kernel : ∀ t : Fin grid0.N, win0_2.index t 0 = 0 ∧ win0_2.index t 1 = 0)

theorem flushed0_1 (c : Dev nD) (t : Fin cfg0.N) (hf : (cfg0.win 1).flush t = true) :
    (dat0 V c).flushed 1 t = ((cfg0.win 1).blk t).view.read (Elt Ideal) (meanRow V c) := by
  have ht : t.val % 8 = 7 := (flush0_1 t).mp hf
  show (cfg0.win 1).cut (grid0.coords t) ((dat0 V c).after 1 t) = _
  rw [after0_1, (outs_last V c t ht).1]
  have hz' : (fun a => win0_1.index t a * main_v0_0.ty.shape.size a) = fun _ => 0 := funext fun a => by
    match a with
    | ⟨0, _⟩ => show win0_1.index t 0 * 1 = 0; rw [(win0_1_index t).1]
    | ⟨1, _⟩ => show win0_1.index t 1 * 1024 = 0; rw [(win0_1_index t).2]
  exact (Memref.read_access_unit_zero (Elt Ideal) main_v0_0 hz' (fun a => by rw [congrFun hz' a]; simp) (meanRow V c)).symm

theorem flushed0_2 (c : Dev nD) (t : Fin cfg0.N) (hf : (cfg0.win 2).flush t = true) :
    (dat0 V c).flushed 2 t = ((cfg0.win 2).blk t).view.read (Elt Ideal) (sdRow V c) := by
  have ht : t.val % 8 = 7 := (flush0_2 t).mp hf
  show (cfg0.win 2).cut (grid0.coords t) ((dat0 V c).after 2 t) = _
  rw [after0_2, (outs_last V c t ht).2]
  have hz' : (fun a => win0_2.index t a * main_v0_1.ty.shape.size a) = fun _ => 0 := funext fun a => by
    match a with
    | ⟨0, _⟩ => show win0_2.index t 0 * 1 = 0; rw [(win0_2_index t).1]
    | ⟨1, _⟩ => show win0_2.index t 1 * 1024 = 0; rw [(win0_2_index t).2]
  exact (Memref.read_access_unit_zero (Elt Ideal) main_v0_1 hz' (fun a => by rw [congrFun hz' a]; simp) (sdRow V c)).symm

theorem arrAt0_1 (c : Dev nD) : (dat0 (F := Ideal) V c).arrAt 1 cfg0.N = meanRow V c :=
  (dat0 V c).arrAt_eq_of_cover 1 (meanRow V c) (flushed0_1 V c) fun i =>
    ⟨t0_7, (flush0_1 t0_7).mpr rfl, by
      show i ∈ ((View.whole main_v0_0).slice (win0_1.rect t0_7)).set
      rw [View.set_slice_whole, Rect.mem_set_unit]
      intro a
      have h0 : (i 0 : Nat) < 1 := (i 0).isLt
      have h1 : (i 1 : Nat) < 1024 := (i 1).isLt
      match a with
      | ⟨0, _⟩ =>
        show win0_1.index t0_7 0 * win0_1.size 0 ≤ (i 0 : Nat) ∧ (i 0 : Nat) < win0_1.index t0_7 0 * win0_1.size 0 + win0_1.xsize (grid0.coords t0_7) 0
        rw [show win0_1.index t0_7 0 * win0_1.size 0 = 0 from by decide +kernel, show win0_1.xsize (grid0.coords t0_7) 0 = 1 from by decide +kernel]; omega
      | ⟨1, _⟩ =>
        show win0_1.index t0_7 1 * win0_1.size 1 ≤ (i 1 : Nat) ∧ (i 1 : Nat) < win0_1.index t0_7 1 * win0_1.size 1 + win0_1.xsize (grid0.coords t0_7) 1
        rw [show win0_1.index t0_7 1 * win0_1.size 1 = 0 from by decide +kernel, show win0_1.xsize (grid0.coords t0_7) 1 = 1024 from by decide +kernel]; omega⟩

theorem arrAt0_2 (c : Dev nD) : (dat0 (F := Ideal) V c).arrAt 2 cfg0.N = sdRow V c :=
  (dat0 V c).arrAt_eq_of_cover 2 (sdRow V c) (flushed0_2 V c) fun i =>
    ⟨t0_7, (flush0_2 t0_7).mpr rfl, by
      show i ∈ ((View.whole main_v0_1).slice (win0_2.rect t0_7)).set
      rw [View.set_slice_whole, Rect.mem_set_unit]
      intro a
      have h0 : (i 0 : Nat) < 1 := (i 0).isLt
      have h1 : (i 1 : Nat) < 1024 := (i 1).isLt
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 0 from by decide +kernel, show win0_2.xsize (grid0.coords t0_7) 0 = 1 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 1024 from by decide +kernel]; omega⟩

end Cert.KernelIdeal.Hand

end
-- ==== Proof.KI.R1Blk.lean ====
import proofs.«158091_j65489661329953_1_alg».proof.Proof.KI.R1Runs
import proofs.«158091_j65489661329953_1_alg».proof.Proof.Spec
import proofs.«158091_j65489661329953_1_alg».proof.Proof.Blocks
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
open Idealize.SL Idealize.SL.Sem
open Cert.Spec (SA)

variable (V : (c : Dev nD) → (b : Ref sig .tc) → Buf (Elt Ideal) ((c : Thread nD τ).loc b))

theorem lt8_s1 (t : Fin cfg1.N) : t.val < 8 := lt_of_lt_of_eq t.isLt (show cfg1.N = 8 from N_1)

theorem win1_0_index : ∀ t : Fin cfg1.N, win1_0.index t 0 = t.val ∧ win1_0.index t 1 = 0 :=
  (by decide +kernel : ∀ t : Fin grid1.N, win1_0.index t 0 = t.val ∧ win1_0.index t 1 = 0)

theorem iblk1_apply (c : Dev nD) (t : Fin cfg1.N) (i j : Fin 1024) :
    (iblk1 V c 0 t : Vec Ideal S1024x1024 .f32) (ix2 i j)
      = (V c main_arg1 : FVec Ideal SA .f32)
          (ix2 (⟨1024 * t.val + i.val, Cert.Spec.row_lt_1024 (lt8_s1 t) i⟩ : Fin 8192) j) := by
  unfold iblk1
  rw [View.read_apply]
  show V c main_arg1 _ = V c main_arg1 _
  refine congrArg (V c main_arg1) ?_
  funext a
  apply Fin.ext
  match a with
  | ⟨0, _⟩ =>
    show win1_0.index t 0 * 1024 + 1 * i.val = 1024 * t.val + i.val
    rw [(win1_0_index t).1]; omega
  | ⟨1, _⟩ =>
    show win1_0.index t 1 * 1024 + 1 * j.val = j.val
    rw [(win1_0_index t).2]; omega

end Cert.KernelIdeal.Hand

end
-- ==== Proof.KI.R1Val.lean ====
import proofs.«158091_j65489661329953_1_alg».proof.Proof.KI.R1Dat
import proofs.«158091_j65489661329953_1_alg».proof.Proof.KI.R0Pcs
import proofs.«158091_j65489661329953_1_alg».proof.Proof.KI.R0Acc
import proofs.«158091_j65489661329953_1_alg».proof.Proof.KI.R1Blk
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (SA partialSum)

section pieces

variable {F : FTy → Type} [FloatOps F]
variable (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole)

theorem sout1_A_0_eq (hc0 : cond1_0 i) (hc1 : ¬cond1_1 i) (x0 : Vec F S1024x1024 .f32) :
    sout1_A_0 c i arg1 harg1 arg2 harg2 arg3 harg3 arg4 harg4 arg5 harg5 hc0 hc1 x0 = k0_pay3 x0 (k0_pay1 (F := F)) := by
  unfold sout1_A_0
  rw [View.read_writes_eq_canon _ _ _ (scover1_A_0 c i arg1 harg1 arg2 harg2 arg3 harg3 arg4 harg4 arg5 harg5 hc0 hc1 x0)]
  exact canon0_A_0 c i arg1 harg1 arg2 harg2 arg3 harg3 arg4 harg4 arg5 harg5 hc0 hc1 x0

theorem sout1_A_1_eq (hc0 : cond1_0 i) (hc1 : ¬cond1_1 i) (x0 : Vec F S1024x1024 .f32) :
    sout1_A_1 c i arg1 harg1 arg2 harg2 arg3 harg3 arg4 harg4 arg5 harg5 hc0 hc1 x0 = k0_pay4 x0 (k0_pay2 (F := F)) := by
  unfold sout1_A_1
  rw [View.read_writes_eq_canon _ _ _ (scover1_A_1 c i arg1 harg1 arg2 harg2 arg3 harg3 arg4 harg4 arg5 harg5 hc0 hc1 x0)]
  exact canon0_A_1 c i arg1 harg1 arg2 harg2 arg3 harg3 arg4 harg4 arg5 harg5 hc0 hc1 x0

theorem sout1_B_0_eq (hc0 : ¬cond1_0 i) (hc1 : ¬cond1_1 i) (x0 : Vec F S1024x1024 .f32) (xs0 xs1 : Vec F S1x1024 .f32) :
    sout1_B_0 c i arg1 harg1 arg2 harg2 arg3 harg3 arg4 harg4 arg5 harg5 hc0 hc1 x0 xs0 xs1 = k0_pay3 x0 xs0 := by
  unfold sout1_B_0
  rw [View.read_writes_eq_canon _ _ _ (scover1_B_0 c i arg1 harg1 arg2 harg2 arg3 harg3 arg4 harg4 arg5 harg5 hc0 hc1 x0 xs0 xs1)]
  exact canon0_B_0 c i arg1 harg1 arg2 harg2 arg3 harg3 arg4 harg4 arg5 harg5 hc0 hc1 x0 xs0 xs1

theorem sout1_B_1_eq (hc0 : ¬cond1_0 i) (hc1 : ¬cond1_1 i) (x0 : Vec F S1024x1024 .f32) (xs0 xs1 : Vec F S1x1024 .f32) :
    sout1_B_1 c i arg1 harg1 arg2 harg2 arg3 harg3 arg4 harg4 arg5 harg5 hc0 hc1 x0 xs0 xs1 = k0_pay4 x0 xs1 := by
  unfold sout1_B_1
  rw [View.read_writes_eq_canon _ _ _ (scover1_B_1 c i arg1 harg1 arg2 harg2 arg3 harg3 arg4 harg4 arg5 harg5 hc0 hc1 x0 xs0 xs1)]
  exact canon0_B_1 c i arg1 harg1 arg2 harg2 arg3 harg3 arg4 harg4 arg5 harg5 hc0 hc1 x0 xs0 xs1

theorem sout1_C_0_eq (hc0 : ¬cond1_0 i) (hc1 : cond1_1 i) (x0 : Vec F S1024x1024 .f32) (xs0 xs1 : Vec F S1x1024 .f32) :
    sout1_C_0 c i arg1 harg1 arg2 harg2 arg3 harg3 arg4 harg4 arg5 harg5 hc0 hc1 x0 xs0 xs1 = k0_pay3 x0 xs0 := by
  unfold sout1_C_0
  rw [View.read_writes_eq_canon _ _ _ (scover1_C_0 c i arg1 harg1 arg2 harg2 arg3 harg3 arg4 harg4 arg5 harg5 hc0 hc1 x0 xs0 xs1)]
  exact canon0_C_s0 c i arg1 harg1 arg2 harg2 arg3 harg3 arg4 harg4 arg5 harg5 hc0 hc1 x0 xs0 xs1

theorem sout1_C_1_eq (hc0 : ¬cond1_0 i) (hc1 : cond1_1 i) (x0 : Vec F S1024x1024 .f32) (xs0 xs1 : Vec F S1x1024 .f32) :
    sout1_C_1 c i arg1 harg1 arg2 harg2 arg3 harg3 arg4 harg4 arg5 harg5 hc0 hc1 x0 xs0 xs1 = k0_pay4 x0 xs1 := by
  unfold sout1_C_1
  rw [View.read_writes_eq_canon _ _ _ (scover1_C_1 c i arg1 harg1 arg2 harg2 arg3 harg3 arg4 harg4 arg5 harg5 hc0 hc1 x0 xs0 xs1)]
  exact canon0_C_s1 c i arg1 harg1 arg2 harg2 arg3 harg3 arg4 harg4 arg5 harg5 hc0 hc1 x0 xs0 xs1

theorem out1_C_1_eq (hc0 : ¬cond1_0 i) (hc1 : cond1_1 i) (x0 : Vec F S1024x1024 .f32) (xs0 xs1 : Vec F S1x1024 .f32) :
    out1_C_1 c i arg1 harg1 arg2 harg2 arg3 harg3 arg4 harg4 arg5 harg5 hc0 hc1 x0 xs0 xs1 = k0_pay5 (k0_pay3 x0 xs0) := by
  unfold out1_C_1
  rw [View.read_writes_eq_canon _ _ _ (cover1_C_1 c i arg1 harg1 arg2 harg2 arg3 harg3 arg4 harg4 arg5 harg5 hc0 hc1 x0 xs0 xs1)]
  exact canon0_C_1 c i arg1 harg1 arg2 harg2 arg3 harg3 arg4 harg4 arg5 harg5 hc0 hc1 x0 xs0 xs1

theorem out1_C_2_eq (hc0 : ¬cond1_0 i) (hc1 : cond1_1 i) (x0 : Vec F S1024x1024 .f32) (xs0 xs1 : Vec F S1x1024 .f32) :
    out1_C_2 c i arg1 harg1 arg2 harg2 arg3 harg3 arg4 harg4 arg5 harg5 hc0 hc1 x0 xs0 xs1 = k0_pay6 (k0_pay3 x0 xs0) (k0_pay4 x0 xs1) := by
  unfold out1_C_2
  rw [View.read_writes_eq_canon _ _ _ (cover1_C_2 c i arg1 harg1 arg2 harg2 arg3 harg3 arg4 harg4 arg5 harg5 hc0 hc1 x0 xs0 xs1)]
  exact canon0_C_2 c i arg1 harg1 arg2 harg2 arg3 harg3 arg4 harg4 arg5 harg5 hc0 hc1 x0 xs0 xs1

end pieces

variable (V : (c : Dev nD) → (b : Ref sig .tc) → Buf (Elt Ideal) ((c : Thread nD τ).loc b))

abbrev arr0_s1 (c : Dev nD) : FVec Ideal SA .f32 := V c main_arg1

theorem acc0_s1 (c : Dev nD) : ∀ (n : ℕ) (hn : n < cfg1.N) (j : Fin 1024),
    ((outsAt1 V c n hn).2.2.1 : Vec Ideal S1x1024 .f32) (ix2 (0 : Fin 1) j)
        = partialSum 1024 (fun r : Fin 8192 => arr0_s1 V c (ix2 r j)) (n + 1)
      ∧ ((outsAt1 V c n hn).2.2.2 : Vec Ideal S1x1024 .f32) (ix2 (0 : Fin 1) j)
        = partialSum 1024 (fun r : Fin 8192 => arr0_s1 V c (ix2 r j) * arr0_s1 V c (ix2 r j)) (n + 1)
  | 0, hn, j => by
    rw [show outsAt1 V c 0 hn = _ from outsAt1_A V c ⟨0, hn⟩ (Nat.zero_mod _) (by show ¬(0 % 8 = 7); decide)]
    dsimp only [atPt1]
    rw [sout1_A_0_eq, sout1_A_1_eq]
    exact ⟨sum_step (arr0_s1 V c) _ _ 0 (by omega) (fun i j => iblk1_apply V c ⟨0, hn⟩ i j) j (sum_reset (arr0_s1 V c) j),
      sq_step (arr0_s1 V c) _ _ 0 (by omega) (fun i j => iblk1_apply V c ⟨0, hn⟩ i j) j (sq_reset (arr0_s1 V c) j)⟩
  | n + 1, hn, j => by
    have hN : n + 1 < 8 := lt_of_lt_of_eq hn (show cfg1.N = 8 from N_1)
    obtain ⟨ihs, ihq⟩ := acc0_s1 c n (Nat.lt_of_succ_lt hn) j
    have h0 : ¬(n + 1) % 8 = 0 := by omega
    by_cases h1 : (n + 1) % 8 = 7
    · rw [show outsAt1 V c (n + 1) hn = _ from outsAt1_C V c ⟨n + 1, hn⟩ h0 h1]
      dsimp only [atPt1]
      rw [sout1_C_0_eq, sout1_C_1_eq]
      exact ⟨sum_step (arr0_s1 V c) _ _ (n + 1) hN (fun i j => iblk1_apply V c ⟨n + 1, hn⟩ i j) j ihs,
        sq_step (arr0_s1 V c) _ _ (n + 1) hN (fun i j => iblk1_apply V c ⟨n + 1, hn⟩ i j) j ihq⟩
    · rw [show outsAt1 V c (n + 1) hn = _ from outsAt1_B V c ⟨n + 1, hn⟩ h0 h1]
      dsimp only [atPt1]
      rw [sout1_B_0_eq, sout1_B_1_eq]
      exact ⟨sum_step (arr0_s1 V c) _ _ (n + 1) hN (fun i j => iblk1_apply V c ⟨n + 1, hn⟩ i j) j ihs,
        sq_step (arr0_s1 V c) _ _ (n + 1) hN (fun i j => iblk1_apply V c ⟨n + 1, hn⟩ i j) j ihq⟩

abbrev meanRow_s1 (c : Dev nD) : Buf (Elt Ideal) ((c : Thread nD τ).loc main_v1_0) :=
  fun i : S1x1024.Idx => Cert.Spec.mean (arr0_s1 V c) (i 1)

abbrev sdRow_s1 (c : Dev nD) : Buf (Elt Ideal) ((c : Thread nD τ).loc main_v1_1) :=
  fun i : S1x1024.Idx => Cert.Spec.sdK (arr0_s1 V c) (i 1)

theorem outs_last_s1 (c : Dev nD) (t : Fin cfg1.N) (ht : t.val % 8 = 7) :
    (outsAt1 V c t.val t.isLt).1 = meanRow_s1 V c ∧ (outsAt1 V c t.val t.isLt).2.1 = sdRow_s1 V c := by
  have hlt := lt8_s1 t
  have h7 : t.val = 7 := by omega
  rw [outsAt1_C V c t (by omega) ht]
  dsimp only [atPt1]
  rw [out1_C_1_eq, out1_C_2_eq]
  have hprev := acc0_s1 V c (t.val - 1) (Nat.lt_of_le_of_lt (Nat.sub_le _ _) t.isLt)
  generalize outsAt1 V c (t.val - 1) (Nat.lt_of_le_of_lt (Nat.sub_le _ _) t.isLt) = prev at hprev ⊢
  rw [show t.val - 1 + 1 = t.val from by omega] at hprev
  have hs : ∀ j : Fin 1024, k0_pay3 (iblk1 V c 0 t) prev.2.2.1 (ix2 (0 : Fin 1) j)
      = partialSum 1024 (fun r : Fin 8192 => arr0_s1 V c (ix2 r j)) 8 := fun j => by
    have e := sum_step (arr0_s1 V c) _ _ t.val hlt (fun i j => iblk1_apply V c t i j) j (hprev j).1
    rw [h7] at e
    exact e
  have hq : ∀ j : Fin 1024, k0_pay4 (iblk1 V c 0 t) prev.2.2.2 (ix2 (0 : Fin 1) j)
      = partialSum 1024 (fun r : Fin 8192 => arr0_s1 V c (ix2 r j) * arr0_s1 V c (ix2 r j)) 8 := fun j => by
    have e := sq_step (arr0_s1 V c) _ _ t.val hlt (fun i j => iblk1_apply V c t i j) j (hprev j).2
    rw [h7] at e
    exact e
  generalize k0_pay3 (iblk1 V c 0 t) prev.2.2.1 = s at hs ⊢
  generalize k0_pay4 (iblk1 V c 0 t) prev.2.2.2 = q at hq ⊢
  refine ⟨funext fun i => ?_, funext fun i => ?_⟩
  · obtain ⟨u, j, rfl⟩ : ∃ (u : Fin 1) (j : Fin 1024), i = ix2 u j := ⟨i 0, i 1, eq_ix2 i⟩
    obtain rfl : u = 0 := Subsingleton.elim _ _
    exact mean_final (arr0_s1 V c) s j (hs j)
  · obtain ⟨u, j, rfl⟩ : ∃ (u : Fin 1) (j : Fin 1024), i = ix2 u j := ⟨i 0, i 1, eq_ix2 i⟩
    obtain rfl : u = 0 := Subsingleton.elim _ _
    exact sd_final (arr0_s1 V c) s q j (hs j) (hq j)

theorem win1_1_index : ∀ t : Fin cfg1.N, win1_1.index t 0 = 0 ∧ win1_1.index t 1 = 0 :=
  (by decide +kernel : ∀ t : Fin grid1.N, win1_1.index t 0 = 0 ∧ win1_1.index t 1 = 0)

theorem win1_2_index : ∀ t : Fin cfg1.N, win1_2.index t 0 = 0 ∧ win1_2.index t 1 = 0 :=
  (by decide +kernel : ∀ t : Fin grid1.N, win1_2.index t 0 = 0 ∧ win1_2.index t 1 = 0)

theorem flushed1_1 (c : Dev nD) (t : Fin cfg1.N) (hf : (cfg1.win 1).flush t = true) :
    (dat1 V c).flushed 1 t = ((cfg1.win 1).blk t).view.read (Elt Ideal) (meanRow_s1 V c) := by
  have ht : t.val % 8 = 7 := (flush1_1 t).mp hf
  show (cfg1.win 1).cut (grid1.coords t) ((dat1 V c).after 1 t) = _
  rw [after1_1, (outs_last_s1 V c t ht).1]
  have hz' : (fun a => win1_1.index t a * main_v1_0.ty.shape.size a) = fun _ => 0 := funext fun a => by
    match a with
    | ⟨0, _⟩ => show win1_1.index t 0 * 1 = 0; rw [(win1_1_index t).1]
    | ⟨1, _⟩ => show win1_1.index t 1 * 1024 = 0; rw [(win1_1_index t).2]
  exact (Memref.read_access_unit_zero (Elt Ideal) main_v1_0 hz' (fun a => by rw [congrFun hz' a]; simp) (meanRow_s1 V c)).symm

theorem flushed1_2 (c : Dev nD) (t : Fin cfg1.N) (hf : (cfg1.win 2).flush t = true) :
    (dat1 V c).flushed 2 t = ((cfg1.win 2).blk t).view.read (Elt Ideal) (sdRow_s1 V c) := by
  have ht : t.val % 8 = 7 := (flush1_2 t).mp hf
  show (cfg1.win 2).cut (grid1.coords t) ((dat1 V c).after 2 t) = _
  rw [after1_2, (outs_last_s1 V c t ht).2]
  have hz' : (fun a => win1_2.index t a * main_v1_1.ty.shape.size a) = fun _ => 0 := funext fun a => by
    match a with
    | ⟨0, _⟩ => show win1_2.index t 0 * 1 = 0; rw [(win1_2_index t).1]
    | ⟨1, _⟩ => show win1_2.index t 1 * 1024 = 0; rw [(win1_2_index t).2]
  exact (Memref.read_access_unit_zero (Elt Ideal) main_v1_1 hz' (fun a => by rw [congrFun hz' a]; simp) (sdRow_s1 V c)).symm

theorem arrAt1_1 (c : Dev nD) : (dat1 (F := Ideal) V c).arrAt 1 cfg1.N = meanRow_s1 V c :=
  (dat1 V c).arrAt_eq_of_cover 1 (meanRow_s1 V c) (flushed1_1 V c) fun i =>
    ⟨t1_7, (flush1_1 t1_7).mpr rfl, by
      show i ∈ ((View.whole main_v1_0).slice (win1_1.rect t1_7)).set
      rw [View.set_slice_whole, Rect.mem_set_unit]
      intro a
      have h0 : (i 0 : Nat) < 1 := (i 0).isLt
      have h1 : (i 1 : Nat) < 1024 := (i 1).isLt
      match a with
      | ⟨0, _⟩ =>
        show win1_1.index t1_7 0 * win1_1.size 0 ≤ (i 0 : Nat) ∧ (i 0 : Nat) < win1_1.index t1_7 0 * win1_1.size 0 + win1_1.xsize (grid1.coords t1_7) 0
        rw [show win1_1.index t1_7 0 * win1_1.size 0 = 0 from by decide +kernel, show win1_1.xsize (grid1.coords t1_7) 0 = 1 from by decide +kernel]; omega
      | ⟨1, _⟩ =>
        show win1_1.index t1_7 1 * win1_1.size 1 ≤ (i 1 : Nat) ∧ (i 1 : Nat) < win1_1.index t1_7 1 * win1_1.size 1 + win1_1.xsize (grid1.coords t1_7) 1
        rw [show win1_1.index t1_7 1 * win1_1.size 1 = 0 from by decide +kernel, show win1_1.xsize (grid1.coords t1_7) 1 = 1024 from by decide +kernel]; omega⟩

theorem arrAt1_2 (c : Dev nD) : (dat1 (F := Ideal) V c).arrAt 2 cfg1.N = sdRow_s1 V c :=
  (dat1 V c).arrAt_eq_of_cover 2 (sdRow_s1 V c) (flushed1_2 V c) fun i =>
    ⟨t1_7, (flush1_2 t1_7).mpr rfl, by
      show i ∈ ((View.whole main_v1_1).slice (win1_2.rect t1_7)).set
      rw [View.set_slice_whole, Rect.mem_set_unit]
      intro a
      have h0 : (i 0 : Nat) < 1 := (i 0).isLt
      have h1 : (i 1 : Nat) < 1024 := (i 1).isLt
      match a with
      | ⟨0, _⟩ =>
        show win1_2.index t1_7 0 * win1_2.size 0 ≤ (i 0 : Nat) ∧ (i 0 : Nat) < win1_2.index t1_7 0 * win1_2.size 0 + win1_2.xsize (grid1.coords t1_7) 0
        rw [show win1_2.index t1_7 0 * win1_2.size 0 = 0 from by decide +kernel, show win1_2.xsize (grid1.coords t1_7) 0 = 1 from by decide +kernel]; omega
      | ⟨1, _⟩ =>
        show win1_2.index t1_7 1 * win1_2.size 1 ≤ (i 1 : Nat) ∧ (i 1 : Nat) < win1_2.index t1_7 1 * win1_2.size 1 + win1_2.xsize (grid1.coords t1_7) 1
        rw [show win1_2.index t1_7 1 * win1_2.size 1 = 0 from by decide +kernel, show win1_2.xsize (grid1.coords t1_7) 1 = 1024 from by decide +kernel]; omega⟩

end Cert.KernelIdeal.Hand

end
-- ==== Proof.KI.R2Pay.lean ====
import proofs.«158091_j65489661329953_1_alg».proof.Proof.Gen.KernelIdeal.Skeleton
import proofs.«158091_j65489661329953_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

theorem lhs_gram_0 (j : S1024x1024.Idx) (k : dot_S512x1024_S512x1024_S1024x1024_0_0_1_1_n_n.contr.Idx) :
    (dot_S512x1024_S512x1024_S1024x1024_0_0_1_1_n_n.lhsIdx j k 0 : ℕ) = k ⟨0, by decide⟩ := by
  simp [DotDims.lhsIdx, dot_S512x1024_S512x1024_S1024x1024_0_0_1_1_n_n]; rfl

theorem lhs_gram_1 (j : S1024x1024.Idx) (k : dot_S512x1024_S512x1024_S1024x1024_0_0_1_1_n_n.contr.Idx) :
    (dot_S512x1024_S512x1024_S1024x1024_0_0_1_1_n_n.lhsIdx j k 1 : ℕ) = j 0 := by
  simp [DotDims.lhsIdx, dot_S512x1024_S512x1024_S1024x1024_0_0_1_1_n_n]; rfl

theorem rhs_gram_0 (j : S1024x1024.Idx) (k : dot_S512x1024_S512x1024_S1024x1024_0_0_1_1_n_n.contr.Idx) :
    (dot_S512x1024_S512x1024_S1024x1024_0_0_1_1_n_n.rhsIdx j k 0 : ℕ) = k ⟨0, by decide⟩ := by
  simp [DotDims.rhsIdx, dot_S512x1024_S512x1024_S1024x1024_0_0_1_1_n_n]; rfl

theorem rhs_gram_1 (j : S1024x1024.Idx) (k : dot_S512x1024_S512x1024_S1024x1024_0_0_1_1_n_n.contr.Idx) :
    (dot_S512x1024_S512x1024_S1024x1024_0_0_1_1_n_n.rhsIdx j k 1 : ℕ) = j 1 := by
  simp [DotDims.rhsIdx, dot_S512x1024_S512x1024_S1024x1024_0_0_1_1_n_n]; rfl

theorem gram_apply {φ : FTy} (w : FVec Ideal S512x1024 φ) (a b : Fin 1024) :
    matmul dot_S512x1024_S512x1024_S1024x1024_0_0_1_1_n_n none w w (constant (F := Ideal) S1024x1024 .f32 0x00000000#32) (ix2 a b)
      = ∑ i : Fin 512, w (ix2 i a) * w (ix2 i b) := by
  show FloatOps.matmul _ none w w _ (ix2 a b) = _
  rw [Ideal.matmul_constant_zero_apply,
    ← Equiv.sum_comp (contrEquiv1 dot_S512x1024_S512x1024_S1024x1024_0_0_1_1_n_n 512 rfl rfl).symm]
  refine Finset.sum_congr rfl fun i _ => ?_
  have hk := contrEquiv1_symm_val dot_S512x1024_S512x1024_S1024x1024_0_0_1_1_n_n 512 rfl rfl i
  have hl : dot_S512x1024_S512x1024_S1024x1024_0_0_1_1_n_n.lhsIdx (ix2 a b)
      ((contrEquiv1 dot_S512x1024_S512x1024_S1024x1024_0_0_1_1_n_n 512 rfl rfl).symm i) = ix2 i a := by
    funext ax; apply Fin.ext
    match ax with
    | ⟨0, _⟩ => exact (lhs_gram_0 _ _).trans hk
    | ⟨1, _⟩ => exact lhs_gram_1 _ _
  have hr : dot_S512x1024_S512x1024_S1024x1024_0_0_1_1_n_n.rhsIdx (ix2 a b)
      ((contrEquiv1 dot_S512x1024_S512x1024_S1024x1024_0_0_1_1_n_n 512 rfl rfl).symm i) = ix2 i b := by
    funext ax; apply Fin.ext
    match ax with
    | ⟨0, _⟩ => exact (rhs_gram_0 _ _).trans hk
    | ⟨1, _⟩ => exact rhs_gram_1 _ _
  rw [hl, hr]

theorem k2_pay1_apply (a b : Fin 1024) : (k2_pay1 (F := Ideal)) (ix2 a b) = 0 := by
  unfold k2_pay1
  rw [shapeCast_self]
  exact Ideal.ofBits_zero_f32

def zBlk (x : Vec Ideal S512x1024 .f32) (mu sd : Vec Ideal S1x1024 .f32) (i : Fin 512) (j : Fin 1024) : EReal :=
  Ideal.div (x (ix2 i j) - mu (ix2 0 j)) (sd (ix2 0 j) + Cert.Spec.eps)

theorem k2_pay2_apply (x : Vec Ideal S512x1024 .f32) (mu sd : Vec Ideal S1x1024 .f32) (acc : Vec Ideal S1024x1024 .f32)
    (a b : Fin 1024) :
    k2_pay2 x mu sd acc (ix2 a b) = acc (ix2 a b) + ∑ i : Fin 512, zBlk x mu sd i a * zBlk x mu sd i b := by
  unfold k2_pay2
  rw [shapeCast_self, shapeCast_self, shapeCast_self, addf_apply, gram_apply]
  refine congrArg (acc (ix2 a b) + ·) (Finset.sum_congr rfl fun i _ => ?_)
  simp only [truncf_apply, divf_apply, subf_apply, broadcastTo_1b_ab_apply, addf_apply, broadcast_apply]
  rfl

theorem k2_pay3_apply (acc : Vec Ideal S1024x1024 .f32) (a b : Fin 1024) :
    k2_pay3 acc (ix2 a b) = Ideal.div (acc (ix2 a b)) Cert.Spec.n := by
  unfold k2_pay3
  rfl

end Cert.KernelIdeal.Hand

end
-- ==== Proof.KI.R2Step.lean ====
import proofs.«158091_j65489661329953_1_alg».proof.Proof.KI.R2Pay
import proofs.«158091_j65489661329953_1_alg».proof.Proof.Blocks

noncomputable section

open scoped BigOperators

namespace Cert.KernelIdeal.Hand

open Cert.KernelIdeal Cert.KernelIdeal.Gen
open Idealize.ShloMosaic Idealize.ShloMosaic.ValueIdx

def gramTerm (A : FVec Ideal Cert.Spec.SA .f32) (mu sd : Fin 1024 → EReal) (a b : Fin 1024) (r : Fin 8192) : EReal :=
  Cert.Spec.z A mu sd r a * Cert.Spec.z A mu sd r b

theorem zBlk_eq (A : FVec Ideal Cert.Spec.SA .f32) (mu' sd' : Fin 1024 → EReal) (x : Vec Ideal S512x1024 .f32)
    (mu sd : Vec Ideal S1x1024 .f32) (t : ℕ) (ht : t < 16)
    (hx : ∀ (i : Fin 512) (j : Fin 1024), x (ix2 i j) = A (ix2 (⟨512 * t + i.val, Cert.Spec.row_lt_512 ht i⟩ : Fin 8192) j))
    (hmu : ∀ j : Fin 1024, mu (ix2 0 j) = mu' j) (hsd : ∀ j : Fin 1024, sd (ix2 0 j) = sd' j) (i : Fin 512) (j : Fin 1024) :
    zBlk x mu sd i j = Cert.Spec.z A mu' sd' ⟨512 * t + i.val, Cert.Spec.row_lt_512 ht i⟩ j := by
  unfold zBlk Cert.Spec.z
  rw [hx, hmu, hsd]

-- A block of 512 rows adds its products of standardized entries to the partial sum of one entry of the product matrix.
theorem gram_step (A : FVec Ideal Cert.Spec.SA .f32) (mu' sd' : Fin 1024 → EReal) (x : Vec Ideal S512x1024 .f32)
    (mu sd : Vec Ideal S1x1024 .f32) (acc : Vec Ideal S1024x1024 .f32) (t : ℕ) (ht : t < 16)
    (hx : ∀ (i : Fin 512) (j : Fin 1024), x (ix2 i j) = A (ix2 (⟨512 * t + i.val, Cert.Spec.row_lt_512 ht i⟩ : Fin 8192) j))
    (hmu : ∀ j : Fin 1024, mu (ix2 0 j) = mu' j) (hsd : ∀ j : Fin 1024, sd (ix2 0 j) = sd' j) (a b : Fin 1024)
    (hacc : acc (ix2 a b) = Cert.Spec.partialSum 512 (gramTerm A mu' sd' a b) t) :
    k2_pay2 x mu sd acc (ix2 a b) = Cert.Spec.partialSum 512 (gramTerm A mu' sd' a b) (t + 1) := by
  rw [k2_pay2_apply, Cert.Spec.partialSum_succ_512 _ t ht, hacc]
  refine congrArg (Cert.Spec.partialSum 512 (gramTerm A mu' sd' a b) t + ·) (Finset.sum_congr rfl fun i _ => ?_)
  rw [zBlk_eq A mu' sd' x mu sd t ht hx hmu hsd i a, zBlk_eq A mu' sd' x mu sd t ht hx hmu hsd i b]
  rfl

theorem gram_first (A : FVec Ideal Cert.Spec.SA .f32) (mu' sd' : Fin 1024 → EReal) (x : Vec Ideal S512x1024 .f32)
    (mu sd : Vec Ideal S1x1024 .f32)
    (hx : ∀ (i : Fin 512) (j : Fin 1024), x (ix2 i j) = A (ix2 (⟨512 * 0 + i.val, Cert.Spec.row_lt_512 (by decide) i⟩ : Fin 8192) j))
    (hmu : ∀ j : Fin 1024, mu (ix2 0 j) = mu' j) (hsd : ∀ j : Fin 1024, sd (ix2 0 j) = sd' j) (a b : Fin 1024) :
    k2_pay2 x mu sd (k2_pay1 (F := Ideal)) (ix2 a b) = Cert.Spec.partialSum 512 (gramTerm A mu' sd' a b) (0 + 1) :=
  gram_step A mu' sd' x mu sd (k2_pay1 (F := Ideal)) 0 (by decide) hx hmu hsd a b
    ((k2_pay1_apply a b).trans (Cert.Spec.partialSum_zero 512 _).symm)

-- After all sixteen blocks the quotient by n is the correlation.
theorem gram_last (A : FVec Ideal Cert.Spec.SA .f32) (mu' sd' : Fin 1024 → EReal) (acc : Vec Ideal S1024x1024 .f32)
    (a b : Fin 1024) (hacc : acc (ix2 a b) = Cert.Spec.partialSum 512 (gramTerm A mu' sd' a b) 16) :
    k2_pay3 acc (ix2 a b) = Cert.Spec.corr A mu' sd' a b := by
  rw [k2_pay3_apply, hacc, Cert.Spec.partialSum_full_512]
  rfl

end Cert.KernelIdeal.Hand

end
-- ==== Proof.KI.R2Val.lean ====
import proofs.«158091_j65489661329953_1_alg».proof.Proof.KI.R2Dat
import proofs.«158091_j65489661329953_1_alg».proof.Proof.KI.R2Step
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl

variable (c : Dev nD) (i : grid2.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole)

theorem soutA_eq (hc0 : cond2_0 i) (hc1 : ¬cond2_1 i)
    (x0 : Vec F S512x1024 .f32) (x1 : Vec F S1x1024 .f32) (x2 : Vec F S1x1024 .f32) :
    sout2_A_0 c i arg1 harg1 arg2 harg2 arg3 harg3 arg4 harg4 arg5 harg5 hc0 hc1 x0 x1 x2 = k2_pay2 x0 x1 x2 (k2_pay1 (F := F)) := by
  unfold sout2_A_0
  rw [View.read_writes_eq_canon _ _ _ (scover2_A_0 c i arg1 harg1 arg2 harg2 arg3 harg3 arg4 harg4 arg5 harg5 hc0 hc1 x0 x1 x2)]
  unfold kernelRun2_A
  dsimp only
  sl_unfold_words
  rw [View.canon_cons_unit_zero (S := S1024x1024) hz2, View.readCov_unit_zero (S := S1024x1024) _ hz2]
  simp only [View.readAt_eq_ld, harg1.read_unread, harg2.read_unread, harg3.read_unread,
    View.ld_unit_zero (S := S512x1024) hz2, View.ld_unit_zero (S := S1x1024) hz2]

theorem soutB_eq (hc0 : ¬cond2_0 i) (hc1 : ¬cond2_1 i) (x0 : Vec F S512x1024 .f32) (x1 : Vec F S1x1024 .f32) (x2 : Vec F S1x1024 .f32) (xs0 : Vec F S1024x1024 .f32) :
    sout2_B_0 c i arg1 harg1 arg2 harg2 arg3 harg3 arg4 harg4 arg5 harg5 hc0 hc1 x0 x1 x2 xs0 = k2_pay2 x0 x1 x2 xs0 := by
  unfold sout2_B_0
  rw [View.read_writes_eq_canon _ _ _ (scover2_B_0 c i arg1 harg1 arg2 harg2 arg3 harg3 arg4 harg4 arg5 harg5 hc0 hc1 x0 x1 x2 xs0)]
  unfold kernelRun2_B
  dsimp only
  try sl_unfold_words
  rw [View.canon_unit_zero hz2]
  simp only [View.readAt_eq_ld, harg1.read_unread, harg2.read_unread, harg3.read_unread, harg5.read_unread,
    View.ld_unit_zero (S := S512x1024) hz2, View.ld_unit_zero (S := S1x1024) hz2, View.ld_unit_zero (S := S1024x1024) hz2]

theorem soutC_eq (hc0 : ¬cond2_0 i) (hc1 : cond2_1 i) (x0 : Vec F S512x1024 .f32) (x1 : Vec F S1x1024 .f32) (x2 : Vec F S1x1024 .f32) (xs0 : Vec F S1024x1024 .f32) :
    sout2_C_0 c i arg1 harg1 arg2 harg2 arg3 harg3 arg4 harg4 arg5 harg5 hc0 hc1 x0 x1 x2 xs0 = k2_pay2 x0 x1 x2 xs0 := by
  unfold sout2_C_0
  rw [View.read_writes_eq_canon _ _ _ (scover2_C_0 c i arg1 harg1 arg2 harg2 arg3 harg3 arg4 harg4 arg5 harg5 hc0 hc1 x0 x1 x2 xs0)]
  unfold kernelRun2_C
  dsimp only
  try sl_unfold_words
  rw [View.canon_unit_zero hz2]
  simp only [View.readAt_eq_ld, harg1.read_unread, harg2.read_unread, harg3.read_unread, harg5.read_unread,
    View.ld_unit_zero (S := S512x1024) hz2, View.ld_unit_zero (S := S1x1024) hz2, View.ld_unit_zero (S := S1024x1024) hz2]

theorem outC_eq (hc0 : ¬cond2_0 i) (hc1 : cond2_1 i) (x0 : Vec F S512x1024 .f32) (x1 : Vec F S1x1024 .f32) (x2 : Vec F S1x1024 .f32) (xs0 : Vec F S1024x1024 .f32) :
    out2_C_3 c i arg1 harg1 arg2 harg2 arg3 harg3 arg4 harg4 arg5 harg5 hc0 hc1 x0 x1 x2 xs0 = k2_pay3 (k2_pay2 x0 x1 x2 xs0) := by
  unfold out2_C_3
  rw [View.read_writes_eq_canon _ _ _ (cover2_C_3 c i arg1 harg1 arg2 harg2 arg3 harg3 arg4 harg4 arg5 harg5 hc0 hc1 x0 x1 x2 xs0)]
  unfold kernelRun2_C
  dsimp only
  try sl_unfold_words
  rw [View.canon_unit_zero hz2, View.readCov_unit_zero (S := S1024x1024) _ hz2]
  simp only [View.readAt_eq_ld, harg1.read_unread, harg2.read_unread, harg3.read_unread, harg5.read_unread,
    View.ld_unit_zero (S := S512x1024) hz2, View.ld_unit_zero (S := S1x1024) hz2, View.ld_unit_zero (S := S1024x1024) hz2]

theorem idx2_facts : ∀ t : Fin cfg2.N, (win2_0.index t 0 = t.val ∧ win2_0.index t 1 = 0)
    ∧ (win2_1.index t 0 = 0 ∧ win2_1.index t 1 = 0) ∧ (win2_2.index t 0 = 0 ∧ win2_2.index t 1 = 0) :=
  (by decide +kernel : ∀ t : Fin grid2.N, (win2_0.index t 0 = t.val ∧ win2_0.index t 1 = 0)
    ∧ (win2_1.index t 0 = 0 ∧ win2_1.index t 1 = 0) ∧ (win2_2.index t 0 = 0 ∧ win2_2.index t 1 = 0))

theorem lt16 (t : Fin cfg2.N) : t.val < 16 := lt_of_lt_of_eq t.isLt N_2

theorem iblk2_0_apply (c : Dev nD) (t : Fin cfg2.N) (i : Fin 512) (j : Fin 1024) :
    (iblk2 V c 0 t : Vec F S512x1024 .f32) (ix2 i j)
      = (V c main_arg0 : S8192x1024.Idx → Elt F .f32) (ix2 (⟨512 * t.val + i.val, Cert.Spec.row_lt_512 (lt16 t) i⟩ : Fin 8192) j) := by
  have hi := (idx2_facts t).1
  unfold iblk2
  rw [View.read_apply]
  show V c main_arg0 _ = V c main_arg0 _
  congr 1
  funext a
  apply Fin.ext
  match a with
  | ⟨0, _⟩ => show win2_0.index t 0 * 512 + 1 * i.val = 512 * t.val + i.val; rw [hi.1]; omega
  | ⟨1, _⟩ => show win2_0.index t 1 * 1024 + 1 * j.val = j.val; rw [hi.2]; omega

theorem iblk2_1_apply (c : Dev nD) (t : Fin cfg2.N) (j : Fin 1024) :
    (iblk2 V c 1 t : Vec F S1x1024 .f32) (ix2 0 j) = (V c main_v0_0 : S1x1024.Idx → Elt F .f32) (ix2 0 j) := by
  have hi := (idx2_facts t).2.1
  unfold iblk2
  rw [View.read_apply]
  show V c main_v0_0 _ = V c main_v0_0 _
  congr 1
  funext a
  apply Fin.ext
  match a with
  | ⟨0, _⟩ => show win2_1.index t 0 * 1 + 1 * 0 = 0; rw [hi.1]
  | ⟨1, _⟩ => show win2_1.index t 1 * 1024 + 1 * j.val = j.val; rw [hi.2]; omega

theorem iblk2_2_apply (c : Dev nD) (t : Fin cfg2.N) (j : Fin 1024) :
    (iblk2 V c 2 t : Vec F S1x1024 .f32) (ix2 0 j) = (V c main_v0_1 : S1x1024.Idx → Elt F .f32) (ix2 0 j) := by
  have hi := (idx2_facts t).2.2
  unfold iblk2
  rw [View.read_apply]
  show V c main_v0_1 _ = V c main_v0_1 _
  congr 1
  funext a
  apply Fin.ext
  match a with
  | ⟨0, _⟩ => show win2_2.index t 0 * 1 + 1 * 0 = 0; rw [hi.1]
  | ⟨1, _⟩ => show win2_2.index t 1 * 1024 + 1 * j.val = j.val; rw [hi.2]; omega

section AtIdeal

variable (W : (c : Dev nD) → (b : Ref sig .tc) → Buf (Elt Ideal) ((c : Thread nD τ).loc b))

abbrev xarr (c : Dev nD) : Vec Ideal S8192x1024 .f32 := W c main_arg0

abbrev muarr (c : Dev nD) : Vec Ideal S1x1024 .f32 := W c main_v0_0

abbrev sdarr (c : Dev nD) : Vec Ideal S1x1024 .f32 := W c main_v0_1

abbrev xblk (c : Dev nD) (t : Fin cfg2.N) : Vec Ideal S512x1024 .f32 := iblk2 W c 0 t

abbrev mublk (c : Dev nD) (t : Fin cfg2.N) : Vec Ideal S1x1024 .f32 := iblk2 W c 1 t

abbrev sdblk (c : Dev nD) (t : Fin cfg2.N) : Vec Ideal S1x1024 .f32 := iblk2 W c 2 t

abbrev muOf (c : Dev nD) : Fin 1024 → EReal := fun j => muarr W c (ix2 0 j)

abbrev sdOf (c : Dev nD) : Fin 1024 → EReal := fun j => sdarr W c (ix2 0 j)

abbrev scAt (c : Dev nD) (n : ℕ) (hn : n < cfg2.N) : Vec Ideal S1024x1024 .f32 := (outsAt2 W c n hn).2

theorem xblk_apply (c : Dev nD) (t : Fin cfg2.N) (i : Fin 512) (j : Fin 1024) :
    xblk W c t (ix2 i j) = xarr W c (ix2 (⟨512 * t.val + i.val, Cert.Spec.row_lt_512 (lt16 t) i⟩ : Fin 8192) j) :=
  iblk2_0_apply W c t i j

theorem mublk_apply (c : Dev nD) (t : Fin cfg2.N) (j : Fin 1024) : mublk W c t (ix2 0 j) = muOf W c j :=
  iblk2_1_apply W c t j

theorem sdblk_apply (c : Dev nD) (t : Fin cfg2.N) (j : Fin 1024) : sdblk W c t (ix2 0 j) = sdOf W c j :=
  iblk2_2_apply W c t j

theorem scAt_eq (c : Dev nD) : ∀ (n : ℕ) (hn : n < cfg2.N) (a b : Fin 1024),
    scAt W c n hn (ix2 a b)
      = Cert.Spec.partialSum 512 (gramTerm (xarr W c) (muOf W c) (sdOf W c) a b) (n + 1)
  | 0, hn, a, b => by
    show (outsAt2 W c (⟨0, hn⟩ : Fin cfg2.N).val (⟨0, hn⟩ : Fin cfg2.N).isLt).2 (ix2 a b) = _
    rw [outsAt2_A W c ⟨0, hn⟩ rfl (by decide : ¬(0 : ℕ) % 16 = 15)]
    dsimp only
    refine (congrFun (soutA_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr rfl) (fun h => (by decide : ¬(0 : ℕ) % 16 = 15) ((hcond2_1 ⟨0, hn⟩).mp h)) (xblk W c ⟨0, hn⟩) (mublk W c ⟨0, hn⟩) (sdblk W c ⟨0, hn⟩)) (ix2 a b)).trans ?_
    exact gram_first (xarr W c) (muOf W c) (sdOf W c) (xblk W c ⟨0, hn⟩) (mublk W c ⟨0, hn⟩) (sdblk W c ⟨0, hn⟩)
      (fun i j => xblk_apply W c ⟨0, hn⟩ i j) (fun j => mublk_apply W c ⟨0, hn⟩ j) (fun j => sdblk_apply W c ⟨0, hn⟩ j) a b
  | n + 1, hn, a, b => by
    have hN : cfg2.N = 16 := N_2
    have ih := scAt_eq c n (Nat.lt_of_succ_lt hn) a b
    have h0 : ¬(⟨n + 1, hn⟩ : Fin cfg2.N).val % 16 = 0 := by dsimp only; omega
    show (outsAt2 W c (⟨n + 1, hn⟩ : Fin cfg2.N).val (⟨n + 1, hn⟩ : Fin cfg2.N).isLt).2 (ix2 a b) = _
    by_cases h1 : (⟨n + 1, hn⟩ : Fin cfg2.N).val % 16 = 15
    · rw [outsAt2_C W c ⟨n + 1, hn⟩ h0 h1]
      dsimp only
      refine (congrFun (soutC_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (xblk W c ⟨n + 1, hn⟩) (mublk W c ⟨n + 1, hn⟩) (sdblk W c ⟨n + 1, hn⟩) (scAt W c n (Nat.lt_of_succ_lt hn))) (ix2 a b)).trans ?_
      exact gram_step (xarr W c) (muOf W c) (sdOf W c) (xblk W c ⟨n + 1, hn⟩) (mublk W c ⟨n + 1, hn⟩) (sdblk W c ⟨n + 1, hn⟩)
        (scAt W c n (Nat.lt_of_succ_lt hn)) (n + 1) (by omega)
        (fun i j => xblk_apply W c ⟨n + 1, hn⟩ i j) (fun j => mublk_apply W c ⟨n + 1, hn⟩ j) (fun j => sdblk_apply W c ⟨n + 1, hn⟩ j) a b ih
    · rw [outsAt2_B W c ⟨n + 1, hn⟩ h0 h1]
      dsimp only
      refine (congrFun (soutB_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (xblk W c ⟨n + 1, hn⟩) (mublk W c ⟨n + 1, hn⟩) (sdblk W c ⟨n + 1, hn⟩) (scAt W c n (Nat.lt_of_succ_lt hn))) (ix2 a b)).trans ?_
      exact gram_step (xarr W c) (muOf W c) (sdOf W c) (xblk W c ⟨n + 1, hn⟩) (mublk W c ⟨n + 1, hn⟩) (sdblk W c ⟨n + 1, hn⟩)
        (scAt W c n (Nat.lt_of_succ_lt hn)) (n + 1) (by omega)
        (fun i j => xblk_apply W c ⟨n + 1, hn⟩ i j) (fun j => mublk_apply W c ⟨n + 1, hn⟩ j) (fun j => sdblk_apply W c ⟨n + 1, hn⟩ j) a b ih

abbrev corrArr (c : Dev nD) : Vec Ideal S1024x1024 .f32 :=
  fun i => Cert.Spec.corr (xarr W c) (muOf W c) (sdOf W c) (i 0) (i 1)

theorem out_last (c : Dev nD) : (outsAt2 W c t2_15.val t2_15.isLt).1 = corrArr W c := by
  have hN : cfg2.N = 16 := N_2
  funext i
  obtain ⟨a, b, rfl⟩ : ∃ (a : Fin 1024) (b : Fin 1024), i = ix2 a b := ⟨i 0, i 1, eq_ix2 i⟩
  have h0 : ¬t2_15.val % 16 = 0 := by decide
  have h1 : t2_15.val % 16 = 15 := by decide
  have h14 : 14 < cfg2.N := by omega
  rw [outsAt2_C W c t2_15 h0 h1]
  dsimp only
  refine (congrFun (outC_eq (F := Ideal) c (grid2.coords t2_15) (ms2_0 t2_15) (hs2_0 t2_15) (ms2_1 t2_15) (hs2_1 t2_15) (ms2_2 t2_15) (hs2_2 t2_15) (ms2_3 t2_15) (hs2_3 t2_15) scM2_0 (Memref.isWhole_whole _) (fun h => h0 ((hcond2_0 t2_15).mp h)) ((hcond2_1 t2_15).mpr h1) (xblk W c t2_15) (mublk W c t2_15) (sdblk W c t2_15) (scAt W c 14 h14)) (ix2 a b)).trans ?_
  refine gram_last (xarr W c) (muOf W c) (sdOf W c) (k2_pay2 (xblk W c t2_15) (mublk W c t2_15) (sdblk W c t2_15) (scAt W c 14 h14)) a b ?_
  exact gram_step (xarr W c) (muOf W c) (sdOf W c) (xblk W c t2_15) (mublk W c t2_15) (sdblk W c t2_15)
    (scAt W c 14 h14) 15 (by decide)
    (fun i j => xblk_apply W c t2_15 i j) (fun j => mublk_apply W c t2_15 j) (fun j => sdblk_apply W c t2_15 j) a b
    (scAt_eq W c 14 h14 a b)

theorem flushed2_3_eq (c : Dev nD) (dat : Dat τ (Elt Ideal) Unit ℕ (UR sig nD τ) ℕ cfg2 c)
    (hafter : ∀ t : Fin cfg2.N, dat.after 3 t = (outsAt2 W c t.val t.isLt).1)
    (t : Fin cfg2.N) (hf : (cfg2.win 3).flush t = true) :
    dat.flushed 3 t = ((cfg2.win 3).blk t).view.read (Elt Ideal) (corrArr W c) := by
  have hN : cfg2.N = 16 := N_2
  have h15 : t.val = 15 := by have := (flush2_3 t).mp hf; have := t.isLt; omega
  obtain rfl : t = t2_15 := Fin.ext h15
  show (cfg2.win 3).cut (grid2.coords t2_15) (dat.after 3 t2_15) = _
  rw [hafter, out_last]
  have hz' : (fun a => win2_3.index t2_15 a * main_v2.ty.shape.size a) = fun _ => 0 := funext fun a => by fin_cases a <;> decide
  exact (Memref.read_access_unit_zero (Elt Ideal) main_v2 hz' (fun a => by rw [congrFun hz' a]; simp) (corrArr W c)).symm

theorem arrAt2_3_of (c : Dev nD) (dat : Dat τ (Elt Ideal) Unit ℕ (UR sig nD τ) ℕ cfg2 c)
    (hafter : ∀ t : Fin cfg2.N, dat.after 3 t = (outsAt2 W c t.val t.isLt).1) :
    dat.arrAt 3 cfg2.N = corrArr W c :=
  dat.arrAt_eq_of_cover 3 (corrArr W c) (flushed2_3_eq W c dat hafter) fun i =>
    ⟨t2_15, (flush2_3 t2_15).mpr rfl, by
      show i ∈ ((View.whole main_v2).slice (win2_3.rect t2_15)).set
      rw [View.set_slice_whole, Rect.mem_set_unit]
      intro a
      have h0 : (i 0 : Nat) < 1024 := (i 0).isLt
      have h1 : (i 1 : Nat) < 1024 := (i 1).isLt
      match a with
      | ⟨0, _⟩ => show win2_3.index t2_15 0 * win2_3.size 0 ≤ (i 0 : Nat) ∧ (i 0 : Nat) < win2_3.index t2_15 0 * win2_3.size 0 + win2_3.xsize (grid2.coords t2_15) 0
                  rw [show win2_3.index t2_15 0 * win2_3.size 0 = 0 from by decide +kernel, show win2_3.xsize (grid2.coords t2_15) 0 = 1024 from by decide +kernel]; omega
      | ⟨1, _⟩ => show win2_3.index t2_15 1 * win2_3.size 1 ≤ (i 1 : Nat) ∧ (i 1 : Nat) < win2_3.index t2_15 1 * win2_3.size 1 + win2_3.xsize (grid2.coords t2_15) 1
                  rw [show win2_3.index t2_15 1 * win2_3.size 1 = 0 from by decide +kernel, show win2_3.xsize (grid2.coords t2_15) 1 = 1024 from by decide +kernel]; omega⟩

theorem arrAt2_3 (c : Dev nD) : (dat2 (F := Ideal) W c).arrAt 3 cfg2.N = corrArr W c :=
  arrAt2_3_of W c (dat2 (F := Ideal) W c) (after2_3 W c)

theorem arrAt2_3' (c : Dev nD) : (dat2 (F := Ideal) W c).arrAt 3 cfg2.N
    = fun i : S1024x1024.Idx => Cert.Spec.corr (W c main_arg0 : Vec Ideal S8192x1024 .f32)
        (fun j : Fin 1024 => (W c main_v0_0 : Vec Ideal S1x1024 .f32) (ix2 0 j))
        (fun j : Fin 1024 => (W c main_v0_1 : Vec Ideal S1x1024 .f32) (ix2 0 j)) (i 0) (i 1) :=
  arrAt2_3 W c

end AtIdeal

end Cert.KernelIdeal.Hand

end
-- ==== Proof.KI.R3Val.lean ====
import proofs.«158091_j65489661329953_1_alg».proof.Proof.KI.R3Dat
import proofs.«158091_j65489661329953_1_alg».proof.Proof.KI.R2Step
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

theorem hz2_s3 : (![0, 0] : Fin 2 → Nat) = fun _ => 0 := funext fun a => by fin_cases a <;> rfl

variable (c : Dev nD) (i : grid3.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole)

theorem soutA_eq_s3 (hc0 : cond3_0 i) (hc1 : ¬cond3_1 i)
    (x0 : Vec F S512x1024 .f32) (x1 : Vec F S1x1024 .f32) (x2 : Vec F S1x1024 .f32) :
    sout3_A_0 c i arg1 harg1 arg2 harg2 arg3 harg3 arg4 harg4 arg5 harg5 hc0 hc1 x0 x1 x2 = k2_pay2 x0 x1 x2 (k2_pay1 (F := F)) := by
  unfold sout3_A_0
  rw [View.read_writes_eq_canon _ _ _ (scover3_A_0 c i arg1 harg1 arg2 harg2 arg3 harg3 arg4 harg4 arg5 harg5 hc0 hc1 x0 x1 x2)]
  unfold kernelRun2_A
  dsimp only
  sl_unfold_words
  rw [View.canon_cons_unit_zero (S := S1024x1024) hz2_s3, View.readCov_unit_zero (S := S1024x1024) _ hz2_s3]
  simp only [View.readAt_eq_ld, harg1.read_unread, harg2.read_unread, harg3.read_unread,
    View.ld_unit_zero (S := S512x1024) hz2_s3, View.ld_unit_zero (S := S1x1024) hz2_s3]

theorem soutB_eq_s3 (hc0 : ¬cond3_0 i) (hc1 : ¬cond3_1 i) (x0 : Vec F S512x1024 .f32) (x1 : Vec F S1x1024 .f32) (x2 : Vec F S1x1024 .f32) (xs0 : Vec F S1024x1024 .f32) :
    sout3_B_0 c i arg1 harg1 arg2 harg2 arg3 harg3 arg4 harg4 arg5 harg5 hc0 hc1 x0 x1 x2 xs0 = k2_pay2 x0 x1 x2 xs0 := by
  unfold sout3_B_0
  rw [View.read_writes_eq_canon _ _ _ (scover3_B_0 c i arg1 harg1 arg2 harg2 arg3 harg3 arg4 harg4 arg5 harg5 hc0 hc1 x0 x1 x2 xs0)]
  unfold kernelRun2_B
  dsimp only
  try sl_unfold_words
  rw [View.canon_unit_zero hz2_s3]
  simp only [View.readAt_eq_ld, harg1.read_unread, harg2.read_unread, harg3.read_unread, harg5.read_unread,
    View.ld_unit_zero (S := S512x1024) hz2_s3, View.ld_unit_zero (S := S1x1024) hz2_s3, View.ld_unit_zero (S := S1024x1024) hz2_s3]

theorem soutC_eq_s3 (hc0 : ¬cond3_0 i) (hc1 : cond3_1 i) (x0 : Vec F S512x1024 .f32) (x1 : Vec F S1x1024 .f32) (x2 : Vec F S1x1024 .f32) (xs0 : Vec F S1024x1024 .f32) :
    sout3_C_0 c i arg1 harg1 arg2 harg2 arg3 harg3 arg4 harg4 arg5 harg5 hc0 hc1 x0 x1 x2 xs0 = k2_pay2 x0 x1 x2 xs0 := by
  unfold sout3_C_0
  rw [View.read_writes_eq_canon _ _ _ (scover3_C_0 c i arg1 harg1 arg2 harg2 arg3 harg3 arg4 harg4 arg5 harg5 hc0 hc1 x0 x1 x2 xs0)]
  unfold kernelRun2_C
  dsimp only
  try sl_unfold_words
  rw [View.canon_unit_zero hz2_s3]
  simp only [View.readAt_eq_ld, harg1.read_unread, harg2.read_unread, harg3.read_unread, harg5.read_unread,
    View.ld_unit_zero (S := S512x1024) hz2_s3, View.ld_unit_zero (S := S1x1024) hz2_s3, View.ld_unit_zero (S := S1024x1024) hz2_s3]

theorem outC_eq_s3 (hc0 : ¬cond3_0 i) (hc1 : cond3_1 i) (x0 : Vec F S512x1024 .f32) (x1 : Vec F S1x1024 .f32) (x2 : Vec F S1x1024 .f32) (xs0 : Vec F S1024x1024 .f32) :
    out3_C_3 c i arg1 harg1 arg2 harg2 arg3 harg3 arg4 harg4 arg5 harg5 hc0 hc1 x0 x1 x2 xs0 = k2_pay3 (k2_pay2 x0 x1 x2 xs0) := by
  unfold out3_C_3
  rw [View.read_writes_eq_canon _ _ _ (cover3_C_3 c i arg1 harg1 arg2 harg2 arg3 harg3 arg4 harg4 arg5 harg5 hc0 hc1 x0 x1 x2 xs0)]
  unfold kernelRun2_C
  dsimp only
  try sl_unfold_words
  rw [View.canon_unit_zero hz2_s3, View.readCov_unit_zero (S := S1024x1024) _ hz2_s3]
  simp only [View.readAt_eq_ld, harg1.read_unread, harg2.read_unread, harg3.read_unread, harg5.read_unread,
    View.ld_unit_zero (S := S512x1024) hz2_s3, View.ld_unit_zero (S := S1x1024) hz2_s3, View.ld_unit_zero (S := S1024x1024) hz2_s3]

theorem idx2_facts_s3 : ∀ t : Fin cfg3.N, (win3_0.index t 0 = t.val ∧ win3_0.index t 1 = 0)
    ∧ (win3_1.index t 0 = 0 ∧ win3_1.index t 1 = 0) ∧ (win3_2.index t 0 = 0 ∧ win3_2.index t 1 = 0) :=
  (by decide +kernel : ∀ t : Fin grid3.N, (win3_0.index t 0 = t.val ∧ win3_0.index t 1 = 0)
    ∧ (win3_1.index t 0 = 0 ∧ win3_1.index t 1 = 0) ∧ (win3_2.index t 0 = 0 ∧ win3_2.index t 1 = 0))

theorem lt16_s3 (t : Fin cfg3.N) : t.val < 16 := lt_of_lt_of_eq t.isLt N_3

theorem iblk3_0_apply (c : Dev nD) (t : Fin cfg3.N) (i : Fin 512) (j : Fin 1024) :
    (iblk3 V c 0 t : Vec F S512x1024 .f32) (ix2 i j)
      = (V c main_arg1 : S8192x1024.Idx → Elt F .f32) (ix2 (⟨512 * t.val + i.val, Cert.Spec.row_lt_512 (lt16_s3 t) i⟩ : Fin 8192) j) := by
  have hi := (idx2_facts_s3 t).1
  unfold iblk3
  rw [View.read_apply]
  show V c main_arg1 _ = V c main_arg1 _
  congr 1
  funext a
  apply Fin.ext
  match a with
  | ⟨0, _⟩ => show win3_0.index t 0 * 512 + 1 * i.val = 512 * t.val + i.val; rw [hi.1]; omega
  | ⟨1, _⟩ => show win3_0.index t 1 * 1024 + 1 * j.val = j.val; rw [hi.2]; omega

theorem iblk3_1_apply (c : Dev nD) (t : Fin cfg3.N) (j : Fin 1024) :
    (iblk3 V c 1 t : Vec F S1x1024 .f32) (ix2 0 j) = (V c main_v1_0 : S1x1024.Idx → Elt F .f32) (ix2 0 j) := by
  have hi := (idx2_facts_s3 t).2.1
  unfold iblk3
  rw [View.read_apply]
  show V c main_v1_0 _ = V c main_v1_0 _
  congr 1
  funext a
  apply Fin.ext
  match a with
  | ⟨0, _⟩ => show win3_1.index t 0 * 1 + 1 * 0 = 0; rw [hi.1]
  | ⟨1, _⟩ => show win3_1.index t 1 * 1024 + 1 * j.val = j.val; rw [hi.2]; omega

theorem iblk3_2_apply (c : Dev nD) (t : Fin cfg3.N) (j : Fin 1024) :
    (iblk3 V c 2 t : Vec F S1x1024 .f32) (ix2 0 j) = (V c main_v1_1 : S1x1024.Idx → Elt F .f32) (ix2 0 j) := by
  have hi := (idx2_facts_s3 t).2.2
  unfold iblk3
  rw [View.read_apply]
  show V c main_v1_1 _ = V c main_v1_1 _
  congr 1
  funext a
  apply Fin.ext
  match a with
  | ⟨0, _⟩ => show win3_2.index t 0 * 1 + 1 * 0 = 0; rw [hi.1]
  | ⟨1, _⟩ => show win3_2.index t 1 * 1024 + 1 * j.val = j.val; rw [hi.2]; omega

section AtIdeal

variable (W : (c : Dev nD) → (b : Ref sig .tc) → Buf (Elt Ideal) ((c : Thread nD τ).loc b))

abbrev xarr_s3 (c : Dev nD) : Vec Ideal S8192x1024 .f32 := W c main_arg1

abbrev muarr_s3 (c : Dev nD) : Vec Ideal S1x1024 .f32 := W c main_v1_0

abbrev sdarr_s3 (c : Dev nD) : Vec Ideal S1x1024 .f32 := W c main_v1_1

abbrev xblk_s3 (c : Dev nD) (t : Fin cfg3.N) : Vec Ideal S512x1024 .f32 := iblk3 W c 0 t

abbrev mublk_s3 (c : Dev nD) (t : Fin cfg3.N) : Vec Ideal S1x1024 .f32 := iblk3 W c 1 t

abbrev sdblk_s3 (c : Dev nD) (t : Fin cfg3.N) : Vec Ideal S1x1024 .f32 := iblk3 W c 2 t

abbrev muOf_s3 (c : Dev nD) : Fin 1024 → EReal := fun j => muarr_s3 W c (ix2 0 j)

abbrev sdOf_s3 (c : Dev nD) : Fin 1024 → EReal := fun j => sdarr_s3 W c (ix2 0 j)

abbrev scAt_s3 (c : Dev nD) (n : ℕ) (hn : n < cfg3.N) : Vec Ideal S1024x1024 .f32 := (outsAt3 W c n hn).2

theorem xblk_apply_s3 (c : Dev nD) (t : Fin cfg3.N) (i : Fin 512) (j : Fin 1024) :
    xblk_s3 W c t (ix2 i j) = xarr_s3 W c (ix2 (⟨512 * t.val + i.val, Cert.Spec.row_lt_512 (lt16_s3 t) i⟩ : Fin 8192) j) :=
  iblk3_0_apply W c t i j

theorem mublk_apply_s3 (c : Dev nD) (t : Fin cfg3.N) (j : Fin 1024) : mublk_s3 W c t (ix2 0 j) = muOf_s3 W c j :=
  iblk3_1_apply W c t j

theorem sdblk_apply_s3 (c : Dev nD) (t : Fin cfg3.N) (j : Fin 1024) : sdblk_s3 W c t (ix2 0 j) = sdOf_s3 W c j :=
  iblk3_2_apply W c t j

theorem scAt_eq_s3 (c : Dev nD) : ∀ (n : ℕ) (hn : n < cfg3.N) (a b : Fin 1024),
    scAt_s3 W c n hn (ix2 a b)
      = Cert.Spec.partialSum 512 (gramTerm (xarr_s3 W c) (muOf_s3 W c) (sdOf_s3 W c) a b) (n + 1)
  | 0, hn, a, b => by
    show (outsAt3 W c (⟨0, hn⟩ : Fin cfg3.N).val (⟨0, hn⟩ : Fin cfg3.N).isLt).2 (ix2 a b) = _
    rw [outsAt3_A W c ⟨0, hn⟩ rfl (by decide : ¬(0 : ℕ) % 16 = 15)]
    dsimp only
    refine (congrFun (soutA_eq_s3 (F := Ideal) c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr rfl) (fun h => (by decide : ¬(0 : ℕ) % 16 = 15) ((hcond3_1 ⟨0, hn⟩).mp h)) (xblk_s3 W c ⟨0, hn⟩) (mublk_s3 W c ⟨0, hn⟩) (sdblk_s3 W c ⟨0, hn⟩)) (ix2 a b)).trans ?_
    exact gram_first (xarr_s3 W c) (muOf_s3 W c) (sdOf_s3 W c) (xblk_s3 W c ⟨0, hn⟩) (mublk_s3 W c ⟨0, hn⟩) (sdblk_s3 W c ⟨0, hn⟩)
      (fun i j => xblk_apply_s3 W c ⟨0, hn⟩ i j) (fun j => mublk_apply_s3 W c ⟨0, hn⟩ j) (fun j => sdblk_apply_s3 W c ⟨0, hn⟩ j) a b
  | n + 1, hn, a, b => by
    have hN : cfg3.N = 16 := N_3
    have ih := scAt_eq_s3 c n (Nat.lt_of_succ_lt hn) a b
    have h0 : ¬(⟨n + 1, hn⟩ : Fin cfg3.N).val % 16 = 0 := by dsimp only; omega
    show (outsAt3 W c (⟨n + 1, hn⟩ : Fin cfg3.N).val (⟨n + 1, hn⟩ : Fin cfg3.N).isLt).2 (ix2 a b) = _
    by_cases h1 : (⟨n + 1, hn⟩ : Fin cfg3.N).val % 16 = 15
    · rw [outsAt3_C W c ⟨n + 1, hn⟩ h0 h1]
      dsimp only
      refine (congrFun (soutC_eq_s3 (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (xblk_s3 W c ⟨n + 1, hn⟩) (mublk_s3 W c ⟨n + 1, hn⟩) (sdblk_s3 W c ⟨n + 1, hn⟩) (scAt_s3 W c n (Nat.lt_of_succ_lt hn))) (ix2 a b)).trans ?_
      exact gram_step (xarr_s3 W c) (muOf_s3 W c) (sdOf_s3 W c) (xblk_s3 W c ⟨n + 1, hn⟩) (mublk_s3 W c ⟨n + 1, hn⟩) (sdblk_s3 W c ⟨n + 1, hn⟩)
        (scAt_s3 W c n (Nat.lt_of_succ_lt hn)) (n + 1) (by omega)
        (fun i j => xblk_apply_s3 W c ⟨n + 1, hn⟩ i j) (fun j => mublk_apply_s3 W c ⟨n + 1, hn⟩ j) (fun j => sdblk_apply_s3 W c ⟨n + 1, hn⟩ j) a b ih
    · rw [outsAt3_B W c ⟨n + 1, hn⟩ h0 h1]
      dsimp only
      refine (congrFun (soutB_eq_s3 (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (xblk_s3 W c ⟨n + 1, hn⟩) (mublk_s3 W c ⟨n + 1, hn⟩) (sdblk_s3 W c ⟨n + 1, hn⟩) (scAt_s3 W c n (Nat.lt_of_succ_lt hn))) (ix2 a b)).trans ?_
      exact gram_step (xarr_s3 W c) (muOf_s3 W c) (sdOf_s3 W c) (xblk_s3 W c ⟨n + 1, hn⟩) (mublk_s3 W c ⟨n + 1, hn⟩) (sdblk_s3 W c ⟨n + 1, hn⟩)
        (scAt_s3 W c n (Nat.lt_of_succ_lt hn)) (n + 1) (by omega)
        (fun i j => xblk_apply_s3 W c ⟨n + 1, hn⟩ i j) (fun j => mublk_apply_s3 W c ⟨n + 1, hn⟩ j) (fun j => sdblk_apply_s3 W c ⟨n + 1, hn⟩ j) a b ih

abbrev corrArr_s3 (c : Dev nD) : Vec Ideal S1024x1024 .f32 :=
  fun i => Cert.Spec.corr (xarr_s3 W c) (muOf_s3 W c) (sdOf_s3 W c) (i 0) (i 1)

theorem out_last_s3 (c : Dev nD) : (outsAt3 W c t3_15.val t3_15.isLt).1 = corrArr_s3 W c := by
  have hN : cfg3.N = 16 := N_3
  funext i
  obtain ⟨a, b, rfl⟩ : ∃ (a : Fin 1024) (b : Fin 1024), i = ix2 a b := ⟨i 0, i 1, eq_ix2 i⟩
  have h0 : ¬t3_15.val % 16 = 0 := by decide
  have h1 : t3_15.val % 16 = 15 := by decide
  have h14 : 14 < cfg3.N := by omega
  rw [outsAt3_C W c t3_15 h0 h1]
  dsimp only
  refine (congrFun (outC_eq_s3 (F := Ideal) c (grid3.coords t3_15) (ms3_0 t3_15) (hs3_0 t3_15) (ms3_1 t3_15) (hs3_1 t3_15) (ms3_2 t3_15) (hs3_2 t3_15) (ms3_3 t3_15) (hs3_3 t3_15) scM3_0 (Memref.isWhole_whole _) (fun h => h0 ((hcond3_0 t3_15).mp h)) ((hcond3_1 t3_15).mpr h1) (xblk_s3 W c t3_15) (mublk_s3 W c t3_15) (sdblk_s3 W c t3_15) (scAt_s3 W c 14 h14)) (ix2 a b)).trans ?_
  refine gram_last (xarr_s3 W c) (muOf_s3 W c) (sdOf_s3 W c) (k2_pay2 (xblk_s3 W c t3_15) (mublk_s3 W c t3_15) (sdblk_s3 W c t3_15) (scAt_s3 W c 14 h14)) a b ?_
  exact gram_step (xarr_s3 W c) (muOf_s3 W c) (sdOf_s3 W c) (xblk_s3 W c t3_15) (mublk_s3 W c t3_15) (sdblk_s3 W c t3_15)
    (scAt_s3 W c 14 h14) 15 (by decide)
    (fun i j => xblk_apply_s3 W c t3_15 i j) (fun j => mublk_apply_s3 W c t3_15 j) (fun j => sdblk_apply_s3 W c t3_15 j) a b
    (scAt_eq_s3 W c 14 h14 a b)

theorem flushed3_3_eq (c : Dev nD) (dat : Dat τ (Elt Ideal) Unit ℕ (UR sig nD τ) ℕ cfg3 c)
    (hafter : ∀ t : Fin cfg3.N, dat.after 3 t = (outsAt3 W c t.val t.isLt).1)
    (t : Fin cfg3.N) (hf : (cfg3.win 3).flush t = true) :
    dat.flushed 3 t = ((cfg3.win 3).blk t).view.read (Elt Ideal) (corrArr_s3 W c) := by
  have hN : cfg3.N = 16 := N_3
  have h15 : t.val = 15 := by have := (flush3_3 t).mp hf; have := t.isLt; omega
  obtain rfl : t = t3_15 := Fin.ext h15
  show (cfg3.win 3).cut (grid3.coords t3_15) (dat.after 3 t3_15) = _
  rw [hafter, out_last_s3]
  have hz' : (fun a => win3_3.index t3_15 a * main_v3.ty.shape.size a) = fun _ => 0 := funext fun a => by fin_cases a <;> decide
  exact (Memref.read_access_unit_zero (Elt Ideal) main_v3 hz' (fun a => by rw [congrFun hz' a]; simp) (corrArr_s3 W c)).symm

theorem arrAt3_3_of (c : Dev nD) (dat : Dat τ (Elt Ideal) Unit ℕ (UR sig nD τ) ℕ cfg3 c)
    (hafter : ∀ t : Fin cfg3.N, dat.after 3 t = (outsAt3 W c t.val t.isLt).1) :
    dat.arrAt 3 cfg3.N = corrArr_s3 W c :=
  dat.arrAt_eq_of_cover 3 (corrArr_s3 W c) (flushed3_3_eq W c dat hafter) fun i =>
    ⟨t3_15, (flush3_3 t3_15).mpr rfl, by
      show i ∈ ((View.whole main_v3).slice (win3_3.rect t3_15)).set
      rw [View.set_slice_whole, Rect.mem_set_unit]
      intro a
      have h0 : (i 0 : Nat) < 1024 := (i 0).isLt
      have h1 : (i 1 : Nat) < 1024 := (i 1).isLt
      match a with
      | ⟨0, _⟩ => show win3_3.index t3_15 0 * win3_3.size 0 ≤ (i 0 : Nat) ∧ (i 0 : Nat) < win3_3.index t3_15 0 * win3_3.size 0 + win3_3.xsize (grid3.coords t3_15) 0
                  rw [show win3_3.index t3_15 0 * win3_3.size 0 = 0 from by decide +kernel, show win3_3.xsize (grid3.coords t3_15) 0 = 1024 from by decide +kernel]; omega
      | ⟨1, _⟩ => show win3_3.index t3_15 1 * win3_3.size 1 ≤ (i 1 : Nat) ∧ (i 1 : Nat) < win3_3.index t3_15 1 * win3_3.size 1 + win3_3.xsize (grid3.coords t3_15) 1
                  rw [show win3_3.index t3_15 1 * win3_3.size 1 = 0 from by decide +kernel, show win3_3.xsize (grid3.coords t3_15) 1 = 1024 from by decide +kernel]; omega⟩

theorem arrAt3_3 (c : Dev nD) : (dat3 (F := Ideal) W c).arrAt 3 cfg3.N = corrArr_s3 W c :=
  arrAt3_3_of W c (dat3 (F := Ideal) W c) (after3_3 W c)

theorem arrAt3_3' (c : Dev nD) : (dat3 (F := Ideal) W c).arrAt 3 cfg3.N
    = fun i : S1024x1024.Idx => Cert.Spec.corr (W c main_arg1 : Vec Ideal S8192x1024 .f32)
        (fun j : Fin 1024 => (W c main_v1_0 : Vec Ideal S1x1024 .f32) (ix2 0 j))
        (fun j : Fin 1024 => (W c main_v1_1 : Vec Ideal S1x1024 .f32) (ix2 0 j)) (i 0) (i 1) :=
  arrAt3_3 W c

end AtIdeal

end Cert.KernelIdeal.Hand

end
-- ==== Proof.KI.R4Val.lean ====
import proofs.«158091_j65489661329953_1_alg».proof.Proof.KI.R4Dat
import proofs.«158091_j65489661329953_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem mask_eq (a b : Fin 1024) :
    FloatOps.sitofp (F := Ideal) .f32 ((IntOp.cmpi .slt (BitVec.ofNat 32 a.val) (BitVec.ofNat 32 b.val)).setWidth 32)
      = Cert.Spec.tri a b := by
  have ha : a.val < 2 ^ 31 := lt_trans a.isLt (by norm_num)
  have hb : b.val < 2 ^ 31 := lt_trans b.isLt (by norm_num)
  have hiff : IntOp.cmpi .slt (BitVec.ofNat 32 a.val) (BitVec.ofNat 32 b.val) = 1#1 ↔ a.val < b.val := by
    unfold IntOp.cmpi; exact StableHlo.Predicate.slt_ofNat_iff a.val b.val ha hb
  unfold Cert.Spec.tri
  by_cases h : a.val < b.val
  · rw [if_pos h, hiff.mpr h]
    show (((1#1 : BitVec 1).setWidth 32).toInt : ℝ) = ((1 : ℝ) : EReal)
    norm_num
  · rw [if_neg h, eq_zero_of_ne_one (fun e => h (hiff.mp e))]
    show (((0#1 : BitVec 1).setWidth 32).toInt : ℝ) = ((0 : ℝ) : EReal)
    norm_num

theorem idx11 (j : S1x1.Idx) : j = ix2 (0 : Fin 1) (0 : Fin 1) := by
  funext d
  match d with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)

theorem lift_rows (a : Fin 1024) : reduces_S1024x1_S1.lift (ix1 (0 : Fin 1)) a = ix2 a (0 : Fin 1) := by
  funext d
  match d with
  | ⟨0, _⟩ => exact Fin.ext rfl
  | ⟨1, _⟩ => exact Fin.ext rfl

theorem lift_cols (a b : Fin 1024) : reduces_S1024x1024_S1024_2.lift (ix1 a) b = ix2 a b := by
  funext d
  match d with
  | ⟨0, _⟩ => exact Fin.ext rfl
  | ⟨1, _⟩ => exact Fin.ext rfl

def term4 (x0 x1 : FVec Ideal S1024x1024 .f32) (a b : Fin 1024) : EReal :=
  (x0 (ix2 a b) - x1 (ix2 a b)) * (x0 (ix2 a b) - x1 (ix2 a b)) * Cert.Spec.tri a b

theorem red_single {s t : Shape} {a : Fin s.rank} (src : FVec Ideal s .f32) (h : s.Reduces [a] t)
    (hφ : FKind.Formats .f32) (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

set_option maxHeartbeats 1000000 in
theorem pay4_eq (x0 x1 : FVec Ideal S1024x1024 .f32) (j : S1x1.Idx) :
    k4_pay1 (F := Ideal) x0 x1 j
      = Cert.Spec.loss (fun a b => x0 (ix2 a b)) (fun a b => x1 (ix2 a b)) := by
  rw [idx11 j]
  unfold k4_pay1 Cert.Spec.loss
  dsimp only
  rw [divf_apply]
  refine congrArg₂ Ideal.div ?_ rfl
  refine (shapeCast_apply _ shapeCasts_S1_S1x1 _ (ix1 (0 : Fin 1)) rfl).trans ?_
  refine (red_single _ reduces_S1024x1_S1 _ _ _).trans ?_
  refine Finset.sum_congr rfl fun a _ => ?_
  refine (congrArg _ (lift_rows a)).trans ?_
  refine (shapeCast_apply _ shapeCasts_S1024_S1024x1 (ix2 a (0 : Fin 1)) (ix1 a) ?_).trans ?_
  · rw [Shape.rowMajor_val_two, Shape.rowMajor_val_one]
    show a.val = a.val * 1 + 0
    omega
  refine (red_single _ reduces_S1024x1024_S1024_2 _ _ _).trans ?_
  refine Finset.sum_congr rfl fun b _ => ?_
  refine (congrArg _ (lift_cols a b)).trans ?_
  show (shapeCast S1024x1024 x0 _ (ix2 a b) - shapeCast S1024x1024 x1 _ (ix2 a b))
      * (shapeCast S1024x1024 x0 _ (ix2 a b) - shapeCast S1024x1024 x1 _ (ix2 a b))
      * FloatOps.sitofp (F := Ideal) .f32 ((IntOp.cmpi .slt (iota .tc S1024x1024 32 [0] _ (ix2 a b)) (iota .tc S1024x1024 32 [1] _ (ix2 a b))).setWidth 32) = _
  rw [shapeCast_self, shapeCast_self, iota_single_apply, iota_single_apply]
  exact congrArg _ (mask_eq a b)

variable (V : (c : Dev nD) → (b : Ref sig .tc) → Buf (Elt Ideal) ((c : Thread nD τ).loc b))

theorem hz4 : (![0, 0] : Fin 2 → Nat) = fun _ => 0 := funext fun a => by fin_cases a <;> rfl

theorem out4_2_eq (x0 x1 : Vec Ideal S1024x1024 .f32) :
    out4_2 (F := Ideal) x0 x1 = fun _ => Cert.Spec.loss (fun a b => x0 (ix2 a b)) (fun a b => x1 (ix2 a b)) := by
  unfold out4_2
  rw [View.canon_unit_zero hz4]
  funext j
  rw [View.ld_unit_zero (S := S1024x1024) hz4, View.ld_unit_zero (S := S1024x1024) hz4]
  exact pay4_eq x0 x1 j

theorem iblk4_0_eq (c : Dev nD) (t : Fin cfg4.N) : (iblk4 V c 0 t : Vec Ideal S1024x1024 .f32) = V c main_v2 := by
  obtain rfl := fin_N4 t
  have hz' : (fun a => win4_0.index t4_0 a * main_v2.ty.shape.size a) = fun _ => 0 := funext fun a => by fin_cases a <;> decide
  exact Memref.read_access_unit_zero (Elt Ideal) main_v2 hz' (fun a => by rw [congrFun hz' a]; simp) (V c main_v2)

theorem iblk4_1_eq (c : Dev nD) (t : Fin cfg4.N) : (iblk4 V c 1 t : Vec Ideal S1024x1024 .f32) = V c main_v3 := by
  obtain rfl := fin_N4 t
  have hz' : (fun a => win4_1.index t4_0 a * main_v3.ty.shape.size a) = fun _ => 0 := funext fun a => by fin_cases a <;> decide
  exact Memref.read_access_unit_zero (Elt Ideal) main_v3 hz' (fun a => by rw [congrFun hz' a]; simp) (V c main_v3)

theorem flushed4_2 (c : Dev nD) (t : Fin cfg4.N) (hf : (cfg4.win 2).flush t = true) :
    (dat4 (F := Ideal) V c).flushed 2 t = ((cfg4.win 2).blk t).view.read (Elt Ideal) (fun _ =>
      Cert.Spec.loss (fun a b => (V c main_v2 : S1024x1024.Idx → Elt Ideal .f32) (ix2 a b))
        (fun a b => (V c main_v3 : S1024x1024.Idx → Elt Ideal .f32) (ix2 a b))) := by
  show (cfg4.win 2).cut (grid4.coords t) ((dat4 V c).after 2 t) = _
  rw [after4_2, out4_2_eq, iblk4_0_eq, iblk4_1_eq]
  rfl

theorem arrAt4 (c : Dev nD) :
    (dat4 (F := Ideal) V c).arrAt 2 cfg4.N = fun _ =>
      Cert.Spec.loss (fun a b => (V c main_v2 : S1024x1024.Idx → Elt Ideal .f32) (ix2 a b))
        (fun a b => (V c main_v3 : S1024x1024.Idx → Elt Ideal .f32) (ix2 a b)) :=
  (dat4 (F := Ideal) V c).arrAt_eq_of_cover 2 (fun _ =>
      Cert.Spec.loss (fun a b => (V c main_v2 : S1024x1024.Idx → Elt Ideal .f32) (ix2 a b))
        (fun a b => (V c main_v3 : S1024x1024.Idx → Elt Ideal .f32) (ix2 a b))) (flushed4_2 V c) fun i =>
    ⟨t4_0, flush4_2 t4_0, by
      show i ∈ ((View.whole main_v4).slice (win4_2.rect t4_0)).set
      rw [View.set_slice_whole, Rect.mem_set_unit]
      intro a
      have h0 : (i 0 : Nat) < 1 := (i 0).isLt
      have h1 : (i 1 : Nat) < 1 := (i 1).isLt
      match a with
      | ⟨0, _⟩ => show win4_2.index t4_0 0 * win4_2.size 0 ≤ (i 0 : Nat) ∧ (i 0 : Nat) < win4_2.index t4_0 0 * win4_2.size 0 + win4_2.xsize (grid4.coords t4_0) 0
                  rw [show win4_2.index t4_0 0 * win4_2.size 0 = 0 from by decide +kernel, show win4_2.xsize (grid4.coords t4_0) 0 = 1 from by decide +kernel]; omega
      | ⟨1, _⟩ => show win4_2.index t4_0 1 * win4_2.size 1 ≤ (i 1 : Nat) ∧ (i 1 : Nat) < win4_2.index t4_0 1 * win4_2.size 1 + win4_2.xsize (grid4.coords t4_0) 1
                  rw [show win4_2.index t4_0 1 * win4_2.size 1 = 0 from by decide +kernel, show win4_2.xsize (grid4.coords t4_0) 1 = 1 from by decide +kernel]; omega⟩

end Cert.KernelIdeal.Hand

end
-- ==== Proof.KI.Total.lean ====
import Idealize.ShloMosaic.Lib.ValueIdx
import Idealize.ShloMosaic.Lib.Pipeline.Value
import Idealize.ShloMosaic.PureOps.Ideal
import proofs.«158091_j65489661329953_1_alg».proof.Proof.Gen.KernelIdeal
import proofs.«158091_j65489661329953_1_alg».proof.Proof.Spec

noncomputable section

namespace Cert.KernelIdeal.Hand

open Cert.KernelIdeal Idealize.ShloMosaic Idealize.ShloMosaic.ValueIdx

theorem total_of (A0 A1 : FVec Ideal S8192x1024 .f32) (mean0 sd0 mean1 sd1 : FVec Ideal S1x1024 .f32)
    (c2 c3 : FVec Ideal S1024x1024 .f32) (l4 : FVec Ideal S1x1 .f32) (hc : S1x1.ShapeCasts S_)
    (h01 : mean0 = fun i => Cert.Spec.mean A0 (i 1))
    (h02 : sd0 = fun i => Cert.Spec.sdK A0 (i 1))
    (h11 : mean1 = fun i => Cert.Spec.mean A1 (i 1))
    (h12 : sd1 = fun i => Cert.Spec.sdK A1 (i 1))
    (h2 : c2 = fun i => Cert.Spec.corr A0 (fun j => mean0 (ix2 0 j)) (fun j => sd0 (ix2 0 j)) (i 0) (i 1))
    (h3 : c3 = fun i => Cert.Spec.corr A1 (fun j => mean1 (ix2 0 j)) (fun j => sd1 (ix2 0 j)) (i 0) (i 1))
    (h4 : l4 = fun _ => Cert.Spec.loss (fun a b => c2 (ix2 a b)) (fun a b => c3 (ix2 a b))) :
    shapeCast S_ l4 hc = fun _ => Cert.Spec.totalK A0 A1 := by
  subst h01 h02 h11 h12
  subst h2 h3
  subst h4
  rfl

end Cert.KernelIdeal.Hand

end
-- ==== Proof.KI.Value.lean ====
import proofs.«158091_j65489661329953_1_alg».proof.Proof.KI.Launch
import proofs.«158091_j65489661329953_1_alg».proof.Proof.KI.R0Val
import proofs.«158091_j65489661329953_1_alg».proof.Proof.KI.R1Val
import proofs.«158091_j65489661329953_1_alg».proof.Proof.KI.R2Val
import proofs.«158091_j65489661329953_1_alg».proof.Proof.KI.R3Val
import proofs.«158091_j65489661329953_1_alg».proof.Proof.KI.R4Val
import proofs.«158091_j65489661329953_1_alg».proof.Proof.KI.Total

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

theorem result_eq (c : Dev nD) :
    W6 m c (Proc.devRef .tc main_v5)
      = fun _ => Cert.Spec.totalK (m ((c : Thread nD τ).loc main_arg0)) (m ((c : Thread nD τ).loc main_arg1)) := by
  rw [W6_main_v5]
  refine total_of (m ((c : Thread nD τ).loc main_arg0)) (m ((c : Thread nD τ).loc main_arg1))
    (V2 m c main_v0_0) (V2 m c main_v0_1) (V3 m c main_v1_0) (V3 m c main_v1_1) (V4 m c main_v2) (V4 m c main_v3)
    ((dat4 (V4 m) c).arrAt 2 cfg4.N) shapeCasts_S1x1_S_ ?_ ?_ ?_ ?_ ?_ ?_ ?_
  · rw [V2_v0_0, arrAt0_1]; rfl
  · rw [V2_v0_1, arrAt0_2]; rfl
  · rw [V3_v1_0, arrAt1_1]
    exact congrArg (fun A : FVec Ideal Cert.Spec.SA .f32 => fun i : S1x1024.Idx => Cert.Spec.mean A (i 1)) (V1_arg1 m c)
  · rw [V3_v1_1, arrAt1_2]
    exact congrArg (fun A : FVec Ideal Cert.Spec.SA .f32 => fun i : S1x1024.Idx => Cert.Spec.sdK A (i 1)) (V1_arg1 m c)
  · rw [V4_v2, arrAt2_3']
    exact congrArg (fun A : FVec Ideal Cert.Spec.SA .f32 => fun i : S1024x1024.Idx =>
      Cert.Spec.corr A (fun j => V2 m c main_v0_0 (ix2 0 j)) (fun j => V2 m c main_v0_1 (ix2 0 j)) (i 0) (i 1)) (V2_arg0 m c)
  · rw [V4_v3, arrAt3_3']
    exact congrArg (fun A : FVec Ideal Cert.Spec.SA .f32 => fun i : S1024x1024.Idx =>
      Cert.Spec.corr A (fun j => V3 m c main_v1_0 (ix2 0 j)) (fun j => V3 m c main_v1_1 (ix2 0 j)) (i 0) (i 1)) (V3_arg1 m c)
  · exact arrAt4 (V4 m) c

end Cert.KernelIdeal.Hand

end
-- ==== Proof.Ref.Ops.lean ====
import proofs.«158091_j65489661329953_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ nullary main_cst (constant S_ .f32 0x00000000#32),
    binary main_arg0 main_cst main_v0 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    unary main_v0 main_v1 (broadcastInDim S1x1024 ![1] bcast_S1024_S1x1024_1 : (⟨S1024, .f32⟩ : BufTy).Contents (Elt F) → (⟨S1x1024, .f32⟩ : BufTy).Contents (Elt F)),
    nullary main_cst_0 (constant S_ .f32 0x46000000#32),
    unary main_cst_0 main_v2 (broadcastInDim S1x1024 ![] bcast_S_S1x1024 : (⟨S_, .f32⟩ : BufTy).Contents (Elt F) → (⟨S1x1024, .f32⟩ : BufTy).Contents (Elt F)),
    binary main_v1 main_v2 main_v3 (Host.divf : (⟨S1x1024, .f32⟩ : BufTy).Contents (Elt F) → (⟨S1x1024, .f32⟩ : BufTy).Contents (Elt F) → (⟨S1x1024, .f32⟩ : BufTy).Contents (Elt F)),
    nullary main_c (constantI S_ 32 1#32),
    TRef.nullary main_call0_call0.cst (constant S_ .f32 0x00000000#32),
    TRef.binary (.of main_arg0) main_call0_call0.cst main_call0_call0.v0 (fun x v => Host.reduceAdd x v reducesTo_S8192x1024_S1024_d0 h_S_),
    TRef.unary main_call0_call0.v0 main_call0_call0.v1 (broadcastInDim S1x1024 ![1] bcast_S1024_S1x1024_1),
    TRef.nullary main_call0_call0.cst_0 (constant S_ .f32 0x46000000#32),
    TRef.unary main_call0_call0.cst_0 main_call0_call0.v2 (broadcastInDim S1x1024 ![] bcast_S_S1x1024),
    TRef.binary main_call0_call0.v1 main_call0_call0.v2 main_call0_call0.v3 Host.divf,
    TRef.unary main_call0_call0.v3 main_call0_call0.v4 (broadcastInDim S8192x1024 ![0, 1] bcast_S1x1024_S8192x1024_0_1),
    TRef.binary (.of main_arg0) main_call0_call0.v4 main_call0_call0.v5 subf,
    TRef.binary main_call0_call0.v5 main_call0_call0.v5 main_call0_call0.v6 mulf,
    TRef.unary (.of main_c) main_call0_call0.v7 (sitofp .f32),
    TRef.nullary main_call0_call0.cst_1 (constant S_ .f32 0x46000000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S8192x1024_S1024_d0 h_S_),
    TRef.unary main_call0_call0.v9 main_call0_call0.v10 (broadcastInDim S1x1024 ![1] bcast_S1024_S1x1024_1),
    TRef.unary main_call0_call0.v8 main_call0_call0.v11 (broadcastInDim S1x1024 ![] bcast_S_S1x1024),
    TRef.binary main_call0_call0.v10 main_call0_call0.v11 main_call0_call0.v12 Host.divf,
    TRef.nullary main_call0_call0.cst_3 (constant S_ .f32 0x00000000#32),
    TRef.binary main_call0_call0.v8 main_call0_call0.cst_3 main_call0_call0.v13 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S1x1024 ![] bcast_S_S1x1024),
    TRef.ternary main_call0_call0.v13 main_call0_call0.v12 main_call0_call0_call0.v1 main_call0_call0_call0.v2 (fun p a b => select (broadcastInDim S1x1024 ![] bcast_S_S1x1024 p) a b),
    TRef.unary main_call0_call0_call0.v2 main_call0.v1 Host.sqrt,
    unary main_v3 main_v5 (broadcastInDim S8192x1024 ![0, 1] bcast_S1x1024_S8192x1024_0_1 : (⟨S1x1024, .f32⟩ : BufTy).Contents (Elt F) → (⟨S8192x1024, .f32⟩ : BufTy).Contents (Elt F)),
    binary main_arg0 main_v5 main_v6 (subf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x3727C5AC#32),
    unary main_cst_1 main_v7 (broadcastInDim S1x1024 ![] bcast_S_S1x1024 : (⟨S_, .f32⟩ : BufTy).Contents (Elt F) → (⟨S1x1024, .f32⟩ : BufTy).Contents (Elt F)),
    binary main_v4 main_v7 main_v8 (addf : (⟨S1x1024, .f32⟩ : BufTy).Contents (Elt F) → (⟨S1x1024, .f32⟩ : BufTy).Contents (Elt F) → (⟨S1x1024, .f32⟩ : BufTy).Contents (Elt F)),
    unary main_v8 main_v9 (broadcastInDim S8192x1024 ![0, 1] bcast_S1x1024_S8192x1024_0_1 : (⟨S1x1024, .f32⟩ : BufTy).Contents (Elt F) → (⟨S8192x1024, .f32⟩ : BufTy).Contents (Elt F)),
    binary main_v6 main_v9 main_v10 (Host.divf : (⟨S8192x1024, .f32⟩ : BufTy).Contents (Elt F) → (⟨S8192x1024, .f32⟩ : BufTy).Contents (Elt F) → (⟨S8192x1024, .f32⟩ : BufTy).Contents (Elt F)),
    unary main_v10 main_v11 ((transpose S1024x8192 [1, 0] · transposes_S8192x1024_S1024x8192_1_0) : (⟨S8192x1024, .f32⟩ : BufTy).Contents (Elt F) → (⟨S1024x8192, .f32⟩ : BufTy).Contents (Elt F)),
    binary main_v11 main_v10 main_v12 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    nullary main_cst_2 (constant S_ .f32 0x46000000#32),
    unary main_cst_2 main_v13 (broadcastInDim S1024x1024 ![] bcast_S_S1024x1024 : (⟨S_, .f32⟩ : BufTy).Contents (Elt F) → (⟨S1024x1024, .f32⟩ : BufTy).Contents (Elt F)),
    binary main_v12 main_v13 main_v14 (Host.divf : (⟨S1024x1024, .f32⟩ : BufTy).Contents (Elt F) → (⟨S1024x1024, .f32⟩ : BufTy).Contents (Elt F) → (⟨S1024x1024, .f32⟩ : BufTy).Contents (Elt F)) ]

abbrev opsB : List (HloOp τ sig (Elt F)) :=
  [ nullary main_cst_3 (constant S_ .f32 0x00000000#32),
    binary main_arg1 main_cst_3 main_v15 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    unary main_v15 main_v16 (broadcastInDim S1x1024 ![1] bcast_S1024_S1x1024_1 : (⟨S1024, .f32⟩ : BufTy).Contents (Elt F) → (⟨S1x1024, .f32⟩ : BufTy).Contents (Elt F)),
    nullary main_cst_4 (constant S_ .f32 0x46000000#32),
    unary main_cst_4 main_v17 (broadcastInDim S1x1024 ![] bcast_S_S1x1024 : (⟨S_, .f32⟩ : BufTy).Contents (Elt F) → (⟨S1x1024, .f32⟩ : BufTy).Contents (Elt F)),
    binary main_v16 main_v17 main_v18 (Host.divf : (⟨S1x1024, .f32⟩ : BufTy).Contents (Elt F) → (⟨S1x1024, .f32⟩ : BufTy).Contents (Elt F) → (⟨S1x1024, .f32⟩ : BufTy).Contents (Elt F)),
    nullary main_c_5 (constantI S_ 32 1#32),
    TRef.nullary main_call1_call0.cst (constant S_ .f32 0x00000000#32),
    TRef.binary (.of main_arg1) main_call1_call0.cst main_call1_call0.v0 (fun x v => Host.reduceAdd x v reducesTo_S8192x1024_S1024_d0 h_S_),
    TRef.unary main_call1_call0.v0 main_call1_call0.v1 (broadcastInDim S1x1024 ![1] bcast_S1024_S1x1024_1),
    TRef.nullary main_call1_call0.cst_0 (constant S_ .f32 0x46000000#32),
    TRef.unary main_call1_call0.cst_0 main_call1_call0.v2 (broadcastInDim S1x1024 ![] bcast_S_S1x1024),
    TRef.binary main_call1_call0.v1 main_call1_call0.v2 main_call1_call0.v3 Host.divf,
    TRef.unary main_call1_call0.v3 main_call1_call0.v4 (broadcastInDim S8192x1024 ![0, 1] bcast_S1x1024_S8192x1024_0_1),
    TRef.binary (.of main_arg1) main_call1_call0.v4 main_call1_call0.v5 subf,
    TRef.binary main_call1_call0.v5 main_call1_call0.v5 main_call1_call0.v6 mulf,
    TRef.unary (.of main_c_5) main_call1_call0.v7 (sitofp .f32),
    TRef.nullary main_call1_call0.cst_1 (constant S_ .f32 0x46000000#32),
    TRef.binary main_call1_call0.cst_1 main_call1_call0.v7 main_call1_call0.v8 subf,
    TRef.nullary main_call1_call0.cst_2 (constant S_ .f32 0x00000000#32),
    TRef.binary main_call1_call0.v6 main_call1_call0.cst_2 main_call1_call0.v9 (fun x v => Host.reduceAdd x v reducesTo_S8192x1024_S1024_d0 h_S_),
    TRef.unary main_call1_call0.v9 main_call1_call0.v10 (broadcastInDim S1x1024 ![1] bcast_S1024_S1x1024_1),
    TRef.unary main_call1_call0.v8 main_call1_call0.v11 (broadcastInDim S1x1024 ![] bcast_S_S1x1024),
    TRef.binary main_call1_call0.v10 main_call1_call0.v11 main_call1_call0.v12 Host.divf,
    TRef.nullary main_call1_call0.cst_3 (constant S_ .f32 0x00000000#32),
    TRef.binary main_call1_call0.v8 main_call1_call0.cst_3 main_call1_call0.v13 (cmpf .ogt),
    TRef.nullary main_call1_call0.cst_4 (constant S_ .f32 0x7FC00000#32),
    TRef.unary main_call1_call0.cst_4 main_call1_call0_call0.v0 id,
    TRef.unary main_call1_call0_call0.v0 main_call1_call0_call0.v1 (broadcastInDim S1x1024 ![] bcast_S_S1x1024),
    TRef.ternary main_call1_call0.v13 main_call1_call0.v12 main_call1_call0_call0.v1 main_call1_call0_call0.v2 (fun p a b => select (broadcastInDim S1x1024 ![] bcast_S_S1x1024 p) a b),
    TRef.unary main_call1_call0_call0.v2 main_call1.v1 Host.sqrt,
    unary main_v18 main_v20 (broadcastInDim S8192x1024 ![0, 1] bcast_S1x1024_S8192x1024_0_1 : (⟨S1x1024, .f32⟩ : BufTy).Contents (Elt F) → (⟨S8192x1024, .f32⟩ : BufTy).Contents (Elt F)),
    binary main_arg1 main_v20 main_v21 (subf : (⟨S8192x1024, .f32⟩ : BufTy).Contents (Elt F) → (⟨S8192x1024, .f32⟩ : BufTy).Contents (Elt F) → (⟨S8192x1024, .f32⟩ : BufTy).Contents (Elt F)),
    nullary main_cst_6 (constant S_ .f32 0x3727C5AC#32),
    unary main_cst_6 main_v22 (broadcastInDim S1x1024 ![] bcast_S_S1x1024 : (⟨S_, .f32⟩ : BufTy).Contents (Elt F) → (⟨S1x1024, .f32⟩ : BufTy).Contents (Elt F)),
    binary main_v19 main_v22 main_v23 (addf : (⟨S1x1024, .f32⟩ : BufTy).Contents (Elt F) → (⟨S1x1024, .f32⟩ : BufTy).Contents (Elt F) → (⟨S1x1024, .f32⟩ : BufTy).Contents (Elt F)),
    unary main_v23 main_v24 (broadcastInDim S8192x1024 ![0, 1] bcast_S1x1024_S8192x1024_0_1 : (⟨S1x1024, .f32⟩ : BufTy).Contents (Elt F) → (⟨S8192x1024, .f32⟩ : BufTy).Contents (Elt F)),
    binary main_v21 main_v24 main_v25 (Host.divf : (⟨S8192x1024, .f32⟩ : BufTy).Contents (Elt F) → (⟨S8192x1024, .f32⟩ : BufTy).Contents (Elt F) → (⟨S8192x1024, .f32⟩ : BufTy).Contents (Elt F)),
    unary main_v25 main_v26 ((transpose S1024x8192 [1, 0] · transposes_S8192x1024_S1024x8192_1_0) : (⟨S8192x1024, .f32⟩ : BufTy).Contents (Elt F) → (⟨S1024x8192, .f32⟩ : BufTy).Contents (Elt F)),
    binary main_v26 main_v25 main_v27 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    nullary main_cst_7 (constant S_ .f32 0x46000000#32),
    unary main_cst_7 main_v28 (broadcastInDim S1024x1024 ![] bcast_S_S1024x1024 : (⟨S_, .f32⟩ : BufTy).Contents (Elt F) → (⟨S1024x1024, .f32⟩ : BufTy).Contents (Elt F)),
    binary main_v27 main_v28 main_v29 (Host.divf : (⟨S1024x1024, .f32⟩ : BufTy).Contents (Elt F) → (⟨S1024x1024, .f32⟩ : BufTy).Contents (Elt F) → (⟨S1024x1024, .f32⟩ : BufTy).Contents (Elt F)) ]

abbrev opsC : List (HloOp τ sig (Elt F)) :=
  [ binary main_v14 main_v29 main_v30 (subf : (⟨S1024x1024, .f32⟩ : BufTy).Contents (Elt F) → (⟨S1024x1024, .f32⟩ : BufTy).Contents (Elt F) → (⟨S1024x1024, .f32⟩ : BufTy).Contents (Elt F)),
    nullary main_cst_8 (constant S_ .f32 0x3F800000#32),
    unary main_cst_8 main_v31 (broadcastInDim S1024x1024 ![] bcast_S_S1024x1024 : (⟨S_, .f32⟩ : BufTy).Contents (Elt F) → (⟨S1024x1024, .f32⟩ : BufTy).Contents (Elt F)),
    TRef.nullary main_call2.v0 (iotaInDim S1024x1024 32 0),
    TRef.nullary main_call2.c (constantI S_ 32 0#32),
    TRef.unary main_call2.c main_call2.v1 (broadcastInDim S1024x1024 ![] bcast_S_S1024x1024),
    TRef.binary main_call2.v0 main_call2.v1 main_call2.v2 addi,
    TRef.nullary main_call2.v3 (iotaInDim S1024x1024 32 1),
    TRef.binary main_call2.v2 main_call2.v3 main_call2.v4 (cmpi .sge),
    TRef.nullary main_call2.cst (constant S_ .f32 0x00000000#32),
    TRef.unary main_call2.cst main_call2.v5 (broadcastInDim S1024x1024 ![] bcast_S_S1024x1024),
    TRef.ternary main_call2.v4 main_call2.v5 (.of main_v31) main_call2.v6 select,
    binary main_v30 main_v30 main_v33 (mulf : (⟨S1024x1024, .f32⟩ : BufTy).Contents (Elt F) → (⟨S1024x1024, .f32⟩ : BufTy).Contents (Elt F) → (⟨S1024x1024, .f32⟩ : BufTy).Contents (Elt F)),
    binary main_v33 main_v32 main_v34 (mulf : (⟨S1024x1024, .f32⟩ : BufTy).Contents (Elt F) → (⟨S1024x1024, .f32⟩ : BufTy).Contents (Elt F) → (⟨S1024x1024, .f32⟩ : BufTy).Contents (Elt F)),
    nullary main_cst_9 (constant S_ .f32 0x00000000#32),
    binary main_v34 main_cst_9 main_v35 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_10 (constant S_ .f32 0x48FFC000#32),
    binary main_v35 main_cst_10 main_v36 (Host.divf : (⟨S_, .f32⟩ : BufTy).Contents (Elt F) → (⟨S_, .f32⟩ : BufTy).Contents (Elt F) → (⟨S_, .f32⟩ : BufTy).Contents (Elt F)) ]

abbrev ops : List (HloOp τ sig (Elt F)) := opsA ++ (opsB ++ opsC)

set_option maxRecDepth 4096 in
set_option maxHeartbeats 1000000 in
theorem main_eq (c : Dev nD) : main (F := F) c = seq ops := by
  simp only [ops, seq_append]
  simp only [main, fn_std.body, fn_var.body, fn_where.body, fn_triu.body, seq, bind_assoc, pure_bind]

theorem scopedRefs_eq : (Finset.univ.filter fun b : Ref sig .tc => b.isScoped) = ∅ := by decide

theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub ..⟩

theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub ..⟩

theorem opsC_sub : (opsC : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., binary_bufs_sub .., binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_iff_forall_mem.2 fun op h =>
    (List.mem_append.1 h).elim (List.forall_iff_forall_mem.1 opsA_sub op) fun h =>
      (List.mem_append.1 h).elim (List.forall_iff_forall_mem.1 opsB_sub op) (List.forall_iff_forall_mem.1 opsC_sub op)

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h =>
  (List.mem_append.1 h).elim (opsA_fresh op) fun h => (List.mem_append.1 h).elim (opsB_fresh op) (opsC_fresh op)

theorem after_ops (V : Valuation τ sig (Elt F)) : after ops V = after opsC (after opsB (after opsA V)) := by
  rw [ops, StableHlo.after_append, StableHlo.after_append]

end Cert.ReferenceIdeal.Hand

end
-- ==== Proof.Ref.Res.lean ====
import proofs.«158091_j65489661329953_1_alg».proof.Proof.Gen.ReferenceIdeal

noncomputable section

namespace Cert.ReferenceIdeal.Hand

open Cert.ReferenceIdeal Cert.ReferenceIdeal.Gen Idealize.ShloMosaic

variable {F : FTy → Type} [FloatOps F]

abbrev TF (F : FTy → Type) (s : Shape) : Type := (⟨s, .f32⟩ : BufTy).Contents (Elt F)

abbrev TI (F : FTy → Type) (s : Shape) (e : EltTy) : Type := (⟨s, e⟩ : BufTy).Contents (Elt F)

def zeroS : TF F S_ := constant (F := F) S_ .f32 0x00000000#32

def nS : TF F S_ := constant (F := F) S_ .f32 0x46000000#32

def epsS : TF F S_ := constant (F := F) S_ .f32 0x3727C5AC#32

def cntS : TF F S_ := constant (F := F) S_ .f32 0x48FFC000#32

def oneS : TF F S_ := constant (F := F) S_ .f32 0x3F800000#32

def nanS : TF F S_ := constant (F := F) S_ .f32 0x7FC00000#32

def ddofS : TI F S_ .i32 := constantI S_ 32 1#32

def nRow : TF F S1x1024 := broadcastInDim S1x1024 ![] bcast_S_S1x1024 (nS (F := F))

def colsum (x : TF F S8192x1024) : TF F S1024 :=
  Host.reduceAdd x (zeroS (F := F)) reducesTo_S8192x1024_S1024_d0 h_S_

def colmean (x : TF F S8192x1024) : TF F S1x1024 :=
  Host.divf (broadcastInDim S1x1024 ![1] bcast_S1024_S1x1024_1 (colsum x)) (nRow (F := F))

def centered (x : TF F S8192x1024) : TF F S8192x1024 :=
  subf x (broadcastInDim S8192x1024 ![0, 1] bcast_S1x1024_S8192x1024_0_1 (colmean x))

def sqdev (x : TF F S8192x1024) : TF F S8192x1024 := mulf (centered x) (centered x)

def nm1S : TF F S_ := subf (nS (F := F)) (sitofp (F := F) .f32 (ddofS (F := F)))

def ssq (x : TF F S8192x1024) : TF F S1024 :=
  Host.reduceAdd (sqdev x) (zeroS (F := F)) reducesTo_S8192x1024_S1024_d0 h_S_

def varq (x : TF F S8192x1024) : TF F S1x1024 :=
  Host.divf (broadcastInDim S1x1024 ![1] bcast_S1024_S1x1024_1 (ssq x))
    (broadcastInDim S1x1024 ![] bcast_S_S1x1024 (nm1S (F := F)))

def guardS : TI F S_ .i1 := cmpf (F := F) .ogt (nm1S (F := F)) (zeroS (F := F))

def var (x : TF F S8192x1024) : TF F S1x1024 :=
  select (broadcastInDim S1x1024 ![] bcast_S_S1x1024 (guardS (F := F))) (varq x)
    (broadcastInDim S1x1024 ![] bcast_S_S1x1024 (id (nanS (F := F))))

def sd (x : TF F S8192x1024) : TF F S1x1024 := Host.sqrt (var x)

def denom (x : TF F S8192x1024) : TF F S1x1024 :=
  addf (sd x) (broadcastInDim S1x1024 ![] bcast_S_S1x1024 (epsS (F := F)))

def zst (x : TF F S8192x1024) : TF F S8192x1024 :=
  Host.divf (centered x) (broadcastInDim S8192x1024 ![0, 1] bcast_S1x1024_S8192x1024_0_1 (denom x))

def zstT (x : TF F S8192x1024) : TF F S1024x8192 :=
  transpose S1024x8192 [1, 0] (zst x) transposes_S8192x1024_S1024x8192_1_0

def gram (x : TF F S8192x1024) : TF F S1024x1024 :=
  Host.dotGeneral dot_S1024x8192_S8192x1024_S1024x1024_1_0_0_1_n_n none (zstT x) (zst x)

def corrm (x : TF F S8192x1024) : TF F S1024x1024 :=
  Host.divf (gram x) (broadcastInDim S1024x1024 ![] bcast_S_S1024x1024 (nS (F := F)))

def rowIdx : TI F S1024x1024 .i32 :=
  addi (iotaInDim S1024x1024 32 0) (broadcastInDim S1024x1024 ![] bcast_S_S1024x1024 (constantI S_ 32 0#32))

def colIdx : TI F S1024x1024 .i32 := iotaInDim S1024x1024 32 1

def lowerBit : TI F S1024x1024 .i1 := cmpi .sge (rowIdx (F := F)) (colIdx (F := F))

def trimask : TF F S1024x1024 :=
  select (lowerBit (F := F)) (broadcastInDim S1024x1024 ![] bcast_S_S1024x1024 (zeroS (F := F)))
    (broadcastInDim S1024x1024 ![] bcast_S_S1024x1024 (oneS (F := F)))

def masked (cx cy : TF F S1024x1024) : TF F S1024x1024 :=
  mulf (mulf (subf cx cy) (subf cx cy)) (trimask (F := F))

def lossOf (cx cy : TF F S1024x1024) : TF F S_ :=
  Host.divf (Host.reduceAdd (masked cx cy) (zeroS (F := F)) reducesTo_S1024x1024_S_d0_1 h_S_) (cntS (F := F))

def res (x y : (⟨S8192x1024, .f32⟩ : BufTy).Contents (Elt F)) : (⟨S_, .f32⟩ : BufTy).Contents (Elt F) :=
  lossOf (corrm x) (corrm y)

end Cert.ReferenceIdeal.Hand

end
-- ==== Proof.Ref.ValA.lean ====
import proofs.«158091_j65489661329953_1_alg».proof.Proof.Ref.Ops
import proofs.«158091_j65489661329953_1_alg».proof.Proof.Ref.Res

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
attribute [local irreducible] Host.reduceAdd in

set_option maxRecDepth 8192 in
set_option maxHeartbeats 1000000 in
theorem A_v14 (V : Valuation τ sig (Elt F)) :
    after opsA V (main_v14 : DevRef τ sig) = corrm (V (main_arg0 : DevRef τ sig)) := by
  after_results_simp
  rfl

set_option maxRecDepth 8192 in
set_option maxHeartbeats 1000000 in
theorem A_arg0 (V : Valuation τ sig (Elt F)) :
    after opsA V (main_arg0 : DevRef τ sig) = V (main_arg0 : DevRef τ sig) := by
  after_results_simp

set_option maxRecDepth 8192 in
set_option maxHeartbeats 1000000 in
theorem A_arg1 (V : Valuation τ sig (Elt F)) :
    after opsA V (main_arg1 : DevRef τ sig) = V (main_arg1 : DevRef τ sig) := by
  after_results_simp

end Cert.ReferenceIdeal.Hand

end
-- ==== Proof.Ref.ValB.lean ====
import proofs.«158091_j65489661329953_1_alg».proof.Proof.Ref.Ops
import proofs.«158091_j65489661329953_1_alg».proof.Proof.Ref.Res

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
attribute [local irreducible] Host.reduceAdd in

set_option maxRecDepth 8192 in
set_option maxHeartbeats 1000000 in
theorem B_v29 (V : Valuation τ sig (Elt F)) :
    after opsB V (main_v29 : DevRef τ sig) = corrm (V (main_arg1 : DevRef τ sig)) := by
  after_results_simp
  rfl

set_option maxRecDepth 8192 in
set_option maxHeartbeats 1000000 in
theorem B_v14 (V : Valuation τ sig (Elt F)) :
    after opsB V (main_v14 : DevRef τ sig) = V (main_v14 : DevRef τ sig) := by
  after_results_simp

set_option maxRecDepth 8192 in
set_option maxHeartbeats 1000000 in
theorem B_arg0 (V : Valuation τ sig (Elt F)) :
    after opsB V (main_arg0 : DevRef τ sig) = V (main_arg0 : DevRef τ sig) := by
  after_results_simp

set_option maxRecDepth 8192 in
set_option maxHeartbeats 1000000 in
theorem B_arg1 (V : Valuation τ sig (Elt F)) :
    after opsB V (main_arg1 : DevRef τ sig) = V (main_arg1 : DevRef τ sig) := by
  after_results_simp

end Cert.ReferenceIdeal.Hand

end
-- ==== Proof.Ref.ValC.lean ====
import proofs.«158091_j65489661329953_1_alg».proof.Proof.Ref.Ops
import proofs.«158091_j65489661329953_1_alg».proof.Proof.Ref.Res

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
attribute [local irreducible] Host.reduceAdd in

set_option maxRecDepth 8192 in
set_option maxHeartbeats 1000000 in
theorem C_v36 (V : Valuation τ sig (Elt F)) :
    after opsC V (main_v36 : DevRef τ sig) = lossOf (V (main_v14 : DevRef τ sig)) (V (main_v29 : DevRef τ sig)) := by
  after_results_simp
  rfl

set_option maxRecDepth 8192 in
set_option maxHeartbeats 1000000 in
theorem C_arg0 (V : Valuation τ sig (Elt F)) :
    after opsC V (main_arg0 : DevRef τ sig) = V (main_arg0 : DevRef τ sig) := by
  after_results_simp

set_option maxRecDepth 8192 in
set_option maxHeartbeats 1000000 in
theorem C_arg1 (V : Valuation τ sig (Elt F)) :
    after opsC V (main_arg1 : DevRef τ sig) = V (main_arg1 : DevRef τ sig) := by
  after_results_simp

end Cert.ReferenceIdeal.Hand

end
-- ==== Proof.Ref.Run.lean ====
import proofs.«158091_j65489661329953_1_alg».proof.Proof.Ref.ValA
import proofs.«158091_j65489661329953_1_alg».proof.Proof.Ref.ValB
import proofs.«158091_j65489661329953_1_alg».proof.Proof.Ref.ValC

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem out_eq (V : Valuation τ sig (Elt F)) :
    after ops V (main_v36 : DevRef τ sig) = res (V (main_arg0 : DevRef τ sig)) (V (main_arg1 : DevRef τ sig)) := by
  rw [after_ops, C_v36, B_v14, B_v29, A_v14, A_arg1]
  rfl

theorem arg0_eq (V : Valuation τ sig (Elt F)) :
    after ops V (main_arg0 : DevRef τ sig) = V (main_arg0 : DevRef τ sig) := by
  rw [after_ops, C_arg0, B_arg0, A_arg0]

theorem arg1_eq (V : Valuation τ sig (Elt F)) :
    after ops V (main_arg1 : DevRef τ sig) = V (main_arg1 : DevRef τ sig) := by
  rw [after_ops, C_arg1, B_arg1, A_arg1]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v36)
          = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v36).trans (out_eq _), (h c main_arg0).trans (arg0_eq _),
      (h c main_arg1).trans (arg1_eq _)⟩)
    (run_seq scopedRefs_eq scopedSems_eq defs main (fun _ => ops) main_eq (fun _ => ops_sub) m ρ (fun _ => ops_fresh))

end Cert.ReferenceIdeal.Hand

end
-- ==== Proof.Ref.ValOps.lean ====
import proofs.«158091_j65489661329953_1_alg».proof.ReferenceIdeal
import proofs.«158091_j65489661329953_1_alg».proof.Proof.Spec
import Idealize.ShloMosaic.Lib.IdealHost
import Idealize.ShloMosaic.Lib.Pipeline.Value

noncomputable section

open scoped BigOperators

namespace Cert.ReferenceIdeal.RefVal

open Idealize.ShloMosaic Idealize.ShloMosaic.ValueIdx Cert.ReferenceIdeal
open Cert.ReferenceIdeal.Facts₀

variable [Facts₀]

theorem reduce_rows (h' : S8192x1024.ReducesTo [0] S1024) (hu : 0 < S_.numel)
    (x : FVec Ideal S8192x1024 .f32) (v : FVec Ideal S_ .f32) (j : Fin 1024) :
    Host.reduceAdd (F := Ideal) x v h' hu (ix1 j) = v ix0 + ∑ r : Fin 8192, x (ix2 r j) := by
  rw [hostReduceAdd_apply]
  have h : S8192x1024.Reduces [0] S1024 := by decide
  rw [Ideal.hostReduceAdd_single _ h]
  congr 1
  · exact congrArg v (eq_ix0 _)
  · refine Finset.sum_congr rfl fun r _ => congrArg x ?_
    funext a; match a with | ⟨0,_⟩ => rfl | ⟨1,_⟩ => rfl

theorem reduce_all (h' : S1024x1024.ReducesTo [0, 1] S_) (hu : 0 < S_.numel)
    (x : FVec Ideal S1024x1024 .f32) (v : FVec Ideal S_ .f32) (i : S_.Idx) :
    Host.reduceAdd (F := Ideal) x v h' hu i
      = v ix0 + ∑ a : Fin 1024, ∑ b : Fin 1024, x (ix2 a b) := by
  rw [hostReduceAdd_apply, Ideal.hostReduceAdd_total _ (fun b => b.elim0), sum_idx2]
  exact congrArg (· + _) (congrArg v (eq_ix0 _))

theorem bcast_vec_row {α : Type} (h : S1024.BroadcastsInDim S1x1024 (![1] : Fin 1 → Fin S1x1024.rank))
    (v : S1024.Idx → α) (u : Fin 1) (j : Fin 1024) :
    broadcastInDim S1x1024 ![1] h v (ix2 u j) = v (ix1 j) :=
  broadcastInDim_apply _ _ v _ (ix1 j) (fun a => match a with
    | ⟨0, _⟩ => by
      show j.val = if (1024 : ℕ) = 1 then 0 else j.val
      rw [if_neg (by decide)])

theorem bcast_scalar_row {α : Type} (h : S_.BroadcastsInDim S1x1024 (![] : Fin 0 → Fin S1x1024.rank))
    (v : S_.Idx → α) (i : S1x1024.Idx) :
    broadcastInDim S1x1024 ![] h v i = v ix0 :=
  broadcastInDim_scalar_apply _ v i

theorem bcast_scalar_sq {α : Type} (h : S_.BroadcastsInDim S1024x1024 (![] : Fin 0 → Fin S1024x1024.rank))
    (v : S_.Idx → α) (i : S1024x1024.Idx) :
    broadcastInDim S1024x1024 ![] h v i = v ix0 :=
  broadcastInDim_scalar_apply _ v i

theorem bcast_row_all {α : Type} (h : S1x1024.BroadcastsInDim S8192x1024 (![0, 1] : Fin 2 → Fin S8192x1024.rank))
    (v : S1x1024.Idx → α) (r : Fin 8192) (j : Fin 1024) :
    broadcastInDim S8192x1024 ![0, 1] h v (ix2 r j) = v (ix2 (0 : Fin 1) j) :=
  broadcastInDim_apply _ _ v _ (ix2 (0 : Fin 1) j) (fun a => match a with
    | ⟨0, _⟩ => by
      show (0 : ℕ) = if (1 : ℕ) = 1 then 0 else r.val
      rw [if_pos rfl]
    | ⟨1, _⟩ => by
      show j.val = if (1024 : ℕ) = 1 then 0 else j.val
      rw [if_neg (by decide)])

theorem transpose_at {α : Type} (h : S8192x1024.Transposes [1, 0] S1024x8192)
    (x : S8192x1024.Idx → α) (j : Fin 1024) (r : Fin 8192) :
    transpose S1024x8192 [1, 0] x h (ix2 j r) = x (ix2 r j) :=
  transpose_apply _ x _ _ (ix2 r j) (fun b => match b with
    | ⟨0, _⟩ => rfl
    | ⟨1, _⟩ => rfl)

theorem hostSqrt_apply {s : Shape} {φ : FTy} (x : FVec Ideal s φ) (i : s.Idx) : Host.sqrt x i = Ideal.sqrt (x i) := rfl

theorem lhs_dot_0 (j : S1024x1024.Idx) (k : dot_S1024x8192_S8192x1024_S1024x1024_1_0_0_1_n_n.contr.Idx) :
    (dot_S1024x8192_S8192x1024_S1024x1024_1_0_0_1_n_n.lhsIdx j k 0).val = (j 0).val := by
  unfold DotDims.lhsIdx
  rw [dif_neg (show ¬(0 : Fin S1024x8192.rank) ∈ dot_S1024x8192_S8192x1024_S1024x1024_1_0_0_1_n_n.lhsBatch from List.not_mem_nil),
    dif_pos (show (0 : Fin S1024x8192.rank) ∈ dot_S1024x8192_S8192x1024_S1024x1024_1_0_0_1_n_n.lhsNonContracting from List.mem_singleton.mpr rfl)]
  rfl

theorem lhs_dot_1 (j : S1024x1024.Idx) (k : dot_S1024x8192_S8192x1024_S1024x1024_1_0_0_1_n_n.contr.Idx) :
    (dot_S1024x8192_S8192x1024_S1024x1024_1_0_0_1_n_n.lhsIdx j k 1).val = (k ⟨0, Nat.one_pos⟩).val :=
  dot_S1024x8192_S8192x1024_S1024x1024_1_0_0_1_n_n.lhsIdx_val_of_single rfl j k

theorem rhs_dot_0 (j : S1024x1024.Idx) (k : dot_S1024x8192_S8192x1024_S1024x1024_1_0_0_1_n_n.contr.Idx) :
    (dot_S1024x8192_S8192x1024_S1024x1024_1_0_0_1_n_n.rhsIdx j k 0).val = (k ⟨0, Nat.one_pos⟩).val :=
  dot_S1024x8192_S8192x1024_S1024x1024_1_0_0_1_n_n.rhsIdx_val_of_single rfl j k

theorem rhs_dot_1 (j : S1024x1024.Idx) (k : dot_S1024x8192_S8192x1024_S1024x1024_1_0_0_1_n_n.contr.Idx) :
    (dot_S1024x8192_S8192x1024_S1024x1024_1_0_0_1_n_n.rhsIdx j k 1).val = (j 1).val := by
  unfold DotDims.rhsIdx
  rw [dif_neg (show ¬(1 : Fin S8192x1024.rank) ∈ dot_S1024x8192_S8192x1024_S1024x1024_1_0_0_1_n_n.rhsBatch from List.not_mem_nil),
    dif_pos (show (1 : Fin S8192x1024.rank) ∈ dot_S1024x8192_S8192x1024_S1024x1024_1_0_0_1_n_n.rhsNonContracting from List.mem_singleton.mpr rfl)]
  rfl

theorem dot_at (l : FVec Ideal S1024x8192 .f32) (r : FVec Ideal S8192x1024 .f32) (a b : Fin 1024) :
    Host.dotGeneral (F := Ideal) dot_S1024x8192_S8192x1024_S1024x1024_1_0_0_1_n_n none l r (ix2 a b)
      = ∑ k : Fin 8192, l (ix2 a k) * r (ix2 k b) := by
  show FloatOps.dotGeneral dot_S1024x8192_S8192x1024_S1024x1024_1_0_0_1_n_n none .single l r (ix2 a b) = _
  rw [Ideal.dotGeneral_apply,
    ← Equiv.sum_comp (contrEquiv1 dot_S1024x8192_S8192x1024_S1024x1024_1_0_0_1_n_n 8192 rfl rfl).symm]
  refine Finset.sum_congr rfl fun k _ => ?_
  congr 1
  · refine congrArg l (funext fun c => Fin.ext ?_)
    match c with
    | ⟨0, _⟩ => exact lhs_dot_0 _ _
    | ⟨1, _⟩ => exact (lhs_dot_1 _ _).trans (contrEquiv1_symm_val _ 8192 rfl rfl k)
  · refine congrArg r (funext fun c => Fin.ext ?_)
    match c with
    | ⟨0, _⟩ => exact (rhs_dot_0 _ _).trans (contrEquiv1_symm_val _ 8192 rfl rfl k)
    | ⟨1, _⟩ => exact rhs_dot_1 _ _

end Cert.ReferenceIdeal.RefVal

end
-- ==== Proof.Consts.lean ====
import Idealize.ShloMosaic.PureOps.Ideal
import Idealize.ShloMosaic.PureOps.Ideal.Laws
import proofs.«158091_j65489661329953_1_alg».proof.Proof.Spec

noncomputable section

namespace Cert.Spec

open Idealize.ShloMosaic

theorem ofBits_one : Ideal.ofBits .f32 0x3F800000#32 = 1 := by
  simp [Ideal.ofBits, Ideal.ieee, -EReal.coe_mul]; norm_num

theorem ofBits_zero : Ideal.ofBits .f32 0x00000000#32 = 0 := Ideal.ofBits_zero_f32

theorem sitofp_zero : FloatOps.sitofp (F := Ideal) .f32 (0#32 : BitVec 32) = 0 := by
  show (((0#32 : BitVec 32).toInt : ℝ) : EReal) = 0
  norm_num

theorem sitofp_one : FloatOps.sitofp (F := Ideal) .f32 (1#32 : BitVec 32) = 1 := by
  show (((1#32 : BitVec 32).toInt : ℝ) : EReal) = 1
  norm_num

theorem n_eq : n = ((8192 : ℝ) : EReal) := by
  unfold n
  simp [Ideal.ofBits, Ideal.ieee, -EReal.coe_mul]; norm_num

theorem nm1_eq : nm1 = ((8191 : ℝ) : EReal) := by
  unfold nm1
  simp [Ideal.ofBits, Ideal.ieee, -EReal.coe_mul]; norm_num

theorem nm1R_eq : nm1R = nm1 := by
  rw [nm1R, sitofp_one, n_eq, nm1_eq, ← EReal.coe_one, ← EReal.coe_sub]
  norm_num

end Cert.Spec

end
-- ==== Proof.Ref.Val.lean ====
import proofs.«158091_j65489661329953_1_alg».proof.Proof.Ref.Res
import proofs.«158091_j65489661329953_1_alg».proof.Proof.Ref.ValOps
import proofs.«158091_j65489661329953_1_alg».proof.Proof.Spec
import proofs.«158091_j65489661329953_1_alg».proof.Proof.Consts
import Idealize.ShloMosaic.Lib.IdealHost
import Idealize.ShloMosaic.Lib.StableHlo.Predicate

noncomputable section

open scoped BigOperators

namespace Cert.ReferenceIdeal.RefVal

open Idealize.ShloMosaic Idealize.ShloMosaic.ValueIdx Cert.ReferenceIdeal Cert.ReferenceIdeal.Hand
open Idealize.ShloMosaic.StableHlo.Predicate (sge_iff_toNat)

theorem toNat_ofNat_small (a : Fin 1024) : (BitVec.ofNat 32 a.val).toNat = a.val := by
  have := a.isLt
  simp only [BitVec.toNat_ofNat]; omega

theorem tri_word (a b : Fin 1024) :
    Scalar.select (IntOp.cmpi .sge (IntOp.addi (BitVec.ofNat 32 a.val) 0#32) (BitVec.ofNat 32 b.val)) (0 : EReal) 1
      = Cert.Spec.tri a b := by
  have ha0 : IntOp.addi (BitVec.ofNat 32 a.val) 0#32 = BitVec.ofNat 32 a.val := by
    unfold IntOp.addi; exact BitVec.add_zero _
  have hat := toNat_ofNat_small a
  have hbt := toNat_ofNat_small b
  have hal : (BitVec.ofNat 32 a.val).toNat < 2 ^ 31 := by have := a.isLt; omega
  have hbl : (BitVec.ofNat 32 b.val).toNat < 2 ^ 31 := by have := b.isLt; omega
  rw [ha0]
  unfold Cert.Spec.tri Scalar.select
  by_cases h : a.val < b.val
  · rw [if_pos h, if_neg]
    intro e
    have := (sge_iff_toNat hal hbl).mp e
    omega
  · rw [if_neg h, if_pos]
    exact (sge_iff_toNat hal hbl).mpr (by omega)

theorem trimask_at (a b : Fin 1024) : trimask (F := Ideal) (ix2 a b) = Cert.Spec.tri a b := by
  have h := tri_word a b
  rw [← Cert.Spec.ofBits_zero, ← Cert.Spec.ofBits_one] at h
  exact h

theorem nm1S_at (i : S_.Idx) : nm1S (F := Ideal) i = Cert.Spec.nm1R := rfl

theorem guardS_at (i : S_.Idx) : guardS (F := Ideal) i = 1#1 := by
  show Ideal.cmp .ogt (nm1S (F := Ideal) i) (zeroS (F := Ideal) i) = 1#1
  rw [nm1S_at]
  show Ideal.cmp .ogt Cert.Spec.nm1R (Ideal.ofBits .f32 0x00000000#32) = 1#1
  rw [Cert.Spec.ofBits_zero, Cert.Spec.nm1R_eq, Cert.Spec.nm1_eq]
  unfold Ideal.cmp
  have : (0 : EReal) < ((8191 : ℝ) : EReal) := by exact_mod_cast (by norm_num : (0 : ℝ) < 8191)
  simp [this]

theorem var_eq_varq (x : FVec Ideal S8192x1024 .f32) : var (F := Ideal) x = varq x := by
  funext i
  unfold var
  rw [select_apply, bcast_scalar_row, guardS_at, select_one]

theorem zeroS_at (i : S_.Idx) : zeroS (F := Ideal) i = 0 := Cert.Spec.ofBits_zero

theorem colsum_at (x : FVec Ideal S8192x1024 .f32) (j : Fin 1024) :
    colsum (F := Ideal) x (ix1 j) = Cert.Spec.colSum x j := by
  unfold colsum
  rw [reduce_rows, zeroS_at, zero_add]
  rfl

theorem colmean_at (x : FVec Ideal S8192x1024 .f32) (u : Fin 1) (j : Fin 1024) :
    colmean (F := Ideal) x (ix2 u j) = Cert.Spec.mean x j := by
  unfold colmean nRow
  rw [hostDivf_apply, bcast_vec_row, colsum_at, bcast_scalar_row]
  rfl

theorem centered_at (x : FVec Ideal S8192x1024 .f32) (r : Fin 8192) (j : Fin 1024) :
    centered (F := Ideal) x (ix2 r j) = x (ix2 r j) - Cert.Spec.mean x j := by
  unfold centered
  rw [subf_apply, bcast_row_all, colmean_at]

theorem sqdev_at (x : FVec Ideal S8192x1024 .f32) (r : Fin 8192) (j : Fin 1024) :
    sqdev (F := Ideal) x (ix2 r j)
      = (x (ix2 r j) - Cert.Spec.mean x j) * (x (ix2 r j) - Cert.Spec.mean x j) := by
  unfold sqdev
  rw [mulf_apply, centered_at]

theorem ssq_at (x : FVec Ideal S8192x1024 .f32) (j : Fin 1024) :
    ssq (F := Ideal) x (ix1 j)
      = ∑ r : Fin 8192, (x (ix2 r j) - Cert.Spec.mean x j) * (x (ix2 r j) - Cert.Spec.mean x j) := by
  unfold ssq
  rw [reduce_rows, zeroS_at, zero_add]
  exact Finset.sum_congr rfl fun r _ => sqdev_at x r j

theorem var_at (x : FVec Ideal S8192x1024 .f32) (u : Fin 1) (j : Fin 1024) :
    var (F := Ideal) x (ix2 u j) = Cert.Spec.varR x j := by
  rw [var_eq_varq]
  unfold varq
  rw [hostDivf_apply, bcast_vec_row, ssq_at, bcast_scalar_row, nm1S_at]
  rfl

theorem sd_at (x : FVec Ideal S8192x1024 .f32) (u : Fin 1) (j : Fin 1024) :
    sd (F := Ideal) x (ix2 u j) = Cert.Spec.sdR x j := by
  unfold sd
  rw [hostSqrt_apply, var_at]
  rfl

theorem zst_at (x : FVec Ideal S8192x1024 .f32) (r : Fin 8192) (j : Fin 1024) :
    zst (F := Ideal) x (ix2 r j) = Cert.Spec.z x (Cert.Spec.mean x) (Cert.Spec.sdR x) r j := by
  unfold zst denom
  rw [hostDivf_apply, centered_at, bcast_row_all, addf_apply, sd_at, bcast_scalar_row]
  rfl

theorem gram_at (x : FVec Ideal S8192x1024 .f32) (a b : Fin 1024) :
    gram (F := Ideal) x (ix2 a b)
      = ∑ k : Fin 8192, Cert.Spec.z x (Cert.Spec.mean x) (Cert.Spec.sdR x) k a
          * Cert.Spec.z x (Cert.Spec.mean x) (Cert.Spec.sdR x) k b := by
  unfold gram zstT
  rw [dot_at]
  refine Finset.sum_congr rfl fun k _ => ?_
  rw [transpose_at, zst_at, zst_at]

theorem corrm_at (x : FVec Ideal S8192x1024 .f32) (a b : Fin 1024) :
    corrm (F := Ideal) x (ix2 a b) = Cert.Spec.corr x (Cert.Spec.mean x) (Cert.Spec.sdR x) a b := by
  unfold corrm
  rw [hostDivf_apply, gram_at, bcast_scalar_sq]
  rfl

theorem masked_at (cx cy : FVec Ideal S1024x1024 .f32) (a b : Fin 1024) :
    masked (F := Ideal) cx cy (ix2 a b)
      = (cx (ix2 a b) - cy (ix2 a b)) * (cx (ix2 a b) - cy (ix2 a b)) * Cert.Spec.tri a b := by
  unfold masked
  rw [mulf_apply, mulf_apply, subf_apply, trimask_at]

theorem lossOf_at (cx cy : FVec Ideal S1024x1024 .f32) (i : S_.Idx) :
    lossOf (F := Ideal) cx cy i
      = Cert.Spec.loss (fun a b => cx (ix2 a b)) (fun a b => cy (ix2 a b)) := by
  unfold lossOf
  rw [hostDivf_apply, reduce_all, zeroS_at, zero_add]
  unfold Cert.Spec.loss
  refine congrArg₂ Ideal.div ?_ rfl
  exact Finset.sum_congr rfl fun a _ => Finset.sum_congr rfl fun b _ => masked_at cx cy a b

theorem res_eq (x y : FVec Ideal S8192x1024 .f32) : res (F := Ideal) x y = fun _ => Cert.Spec.totalR x y := by
  funext i
  unfold res
  rw [lossOf_at]
  unfold Cert.Spec.totalR Cert.Spec.total
  refine congrArg₂ Cert.Spec.loss ?_ ?_
  · funext a b; exact corrm_at x a b
  · funext a b; exact corrm_at y a b

end Cert.ReferenceIdeal.RefVal

end
-- ==== Proof.Variance.lean ====
import Mathlib.Data.EReal.Operations
import Mathlib.Algebra.BigOperators.Ring.Finset
import Mathlib.Tactic.Ring
import Mathlib.Tactic.FieldSimp
import Mathlib.Tactic.NormNum
import Idealize.ShloMosaic.PureOps.Ideal
import Idealize.ShloMosaic.Lib.ValueIdx
import proofs.«158091_j65489661329953_1_alg».proof.Proof.Spec
import proofs.«158091_j65489661329953_1_alg».proof.Proof.Consts

noncomputable section

open scoped BigOperators

namespace Cert.Spec

open Idealize.ShloMosaic Idealize.ShloMosaic.ValueIdx

theorem coe_sum_real {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

-- Σ a² − n·μ² = Σ (a − μ)² when μ is the mean: expand the square and use Σ a = n·μ.
theorem real_var_identity (a : Fin 8192 → ℝ) (μ : ℝ) (hμ : μ = (∑ r, a r) * (1 / 8192)) :
    (∑ r, a r * a r) - 8192 * μ * μ = ∑ r, (a r - μ) * (a r - μ) := by
  have hS : ∑ r, a r = 8192 * μ := by rw [hμ]; ring
  have hexp : ∀ r, (a r - μ) * (a r - μ) = a r * a r - 2 * μ * a r + μ * μ := fun r => by ring
  simp only [hexp]
  rw [Finset.sum_add_distrib, Finset.sum_sub_distrib, ← Finset.mul_sum, hS, Finset.sum_const,
    Finset.card_univ, Fintype.card_fin, nsmul_eq_mul]
  push_cast
  ring

-- On real entries the two variances are one real number: the identity above, carried through the coercion into the extended reals.
theorem varK_eq_varR (A : FVec Ideal SA .f32) (hA : Finite A) (j : Fin 1024) : varK A j = varR A j := by
  choose a ha using hA
  have h8192 : (8192 : ℝ) ≠ 0 := by norm_num
  have hsum : colSum A j = ((∑ r : Fin 8192, a (ix2 r j) : ℝ) : EReal) := by
    unfold colSum; rw [coe_sum_real]; exact Finset.sum_congr rfl fun r _ => ha _
  have hsq : colSumSq A j = ((∑ r : Fin 8192, a (ix2 r j) * a (ix2 r j) : ℝ) : EReal) := by
    unfold colSumSq; rw [coe_sum_real]
    exact Finset.sum_congr rfl fun r _ => by rw [ha, EReal.coe_mul]
  have hmean : mean A j = (((∑ r : Fin 8192, a (ix2 r j)) * (1 / 8192) : ℝ) : EReal) := by
    unfold mean; rw [n_eq, Ideal.div_coe h8192, hsum, EReal.coe_mul]
  have hdev : (∑ r : Fin 8192, (A (ix2 r j) - mean A j) * (A (ix2 r j) - mean A j))
      = ((∑ r : Fin 8192, (a (ix2 r j) - (∑ r : Fin 8192, a (ix2 r j)) * (1 / 8192))
          * (a (ix2 r j) - (∑ r : Fin 8192, a (ix2 r j)) * (1 / 8192)) : ℝ) : EReal) := by
    rw [coe_sum_real]
    exact Finset.sum_congr rfl fun r _ => by rw [ha, hmean, ← EReal.coe_sub, ← EReal.coe_mul]
  unfold varK varR
  rw [nm1R_eq, hdev, hsq, hmean, n_eq, ← EReal.coe_mul, ← EReal.coe_mul, ← EReal.coe_sub,
    real_var_identity (fun r => a (ix2 r j)) _ rfl]

theorem sdK_eq_sdR (A : FVec Ideal SA .f32) (hA : Finite A) (j : Fin 1024) : sdK A j = sdR A j := by
  unfold sdK sdR; rw [varK_eq_varR A hA j]

-- The two totals differ only in the form of the variance.
theorem totalK_eq_totalR (X Y : FVec Ideal SA .f32) (hX : Finite X) (hY : Finite Y) :
    totalK X Y = totalR X Y := by
  have hx : sdK X = sdR X := funext fun j => sdK_eq_sdR X hX j
  have hy : sdK Y = sdR Y := funext fun j => sdK_eq_sdR Y hY j
  unfold totalK totalR total
  rw [hx, hy]

end Cert.Spec

end
-- ==== Proof.Pre.lean ====
import Idealize.ShloMosaic.Lib.ReduceAll
import Idealize.ShloMosaic.Lib.ValueIdx
import Idealize.ShloMosaic.PureOps.Ideal
import proofs.«158091_j65489661329953_1_alg».proof.Defs
import proofs.«158091_j65489661329953_1_alg».proof.Proof.Gen.Pre_finite_inputs
import proofs.«158091_j65489661329953_1_alg».proof.Proof.Spec

noncomputable section

namespace Cert.Spec

open Idealize.ShloMosaic Idealize.ShloMosaic.ValueIdx Idealize.SL.Sem

instance subsingleton_scalar_idx : Subsingleton Cert.Pre_finite_inputs.S_.Idx :=
  ⟨fun a b => funext fun d => d.elim0⟩

theorem ofBits_inf : Ideal.ofBits .f32 0x7F800000#32 = ⊤ := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem finite_of_all (A : FVec Ideal SA .f32)
    (hb : Cert.Pre_finite_inputs.S_.BroadcastsInDim Cert.Pre_finite_inputs.S8192x1024
      (![] : Fin 0 → Fin Cert.Pre_finite_inputs.S8192x1024.rank))
    (hr : Cert.Pre_finite_inputs.S8192x1024.ReducesTo [0, 1] Cert.Pre_finite_inputs.S_)
    (hu : 0 < Cert.Pre_finite_inputs.S_.numel)
    (h : Host.reduce IntOp.andi
        (cmpf .olt (Host.absf (F := Ideal) A)
          (broadcastInDim Cert.Pre_finite_inputs.S8192x1024 ![] hb
            (constant (F := Ideal) Cert.Pre_finite_inputs.S_ .f32 0x7F800000#32)))
        (constantI Cert.Pre_finite_inputs.S_ 1 1#1) hr hu ix0 = 1#1) : Finite A := by
  intro i
  have hi := Host.reduce_andi_all _ _ hr hu ix0 h i
  exact real_of_abs_lt_inf (A i) hi

theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    Finite (m ((c.tc : Thread Cert.KernelIdeal.nD Cert.KernelIdeal.τ).loc Cert.KernelIdeal.main_arg0))
      ∧ Finite (m ((c.tc : Thread Cert.KernelIdeal.nD Cert.KernelIdeal.τ).loc Cert.KernelIdeal.main_arg1)) := by
  have h0 := congrFun (h c) ix0
  dsimp only [Cert.Pre_finite_inputs.fn] at h0
  obtain ⟨ha, hb⟩ := IntOp.andi_eq_one.1 h0
  exact ⟨finite_of_all _ _ _ _ ha, finite_of_all _ _ _ _ hb⟩

end Cert.Spec

end
-- ==== Proof.lean ====
import proofs.«158091_j65489661329953_1_alg».proof.Defs
import proofs.«158091_j65489661329953_1_alg».proof.Proof.Gen.Kernel
import proofs.«158091_j65489661329953_1_alg».proof.Proof.Gen.KernelIdeal
import proofs.«158091_j65489661329953_1_alg».proof.Proof.Gen.ReferenceIdeal
import proofs.«158091_j65489661329953_1_alg».proof.Proof.Gen.Pre_finite_inputs
import proofs.«158091_j65489661329953_1_alg».proof.Proof.K.Launch
import proofs.«158091_j65489661329953_1_alg».proof.Proof.KI.Launch
import proofs.«158091_j65489661329953_1_alg».proof.Proof.KI.Value
import proofs.«158091_j65489661329953_1_alg».proof.Proof.Ref.Run
import proofs.«158091_j65489661329953_1_alg».proof.Proof.Ref.Val
import proofs.«158091_j65489661329953_1_alg».proof.Proof.Variance
import proofs.«158091_j65489661329953_1_alg».proof.Proof.Pre

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

-- Both programs end at the kernel-form total of the arguments; the reference's own total is the same number when every entry is real.
theorem algebraic : Cert.algebraic_KernelIdeal_ReferenceIdeal := by
  intro m ρ m' ρ' hpre hagree
  refine ⟨fun c _ => Cert.Spec.totalK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩)
      (Cert.KernelIdeal.Hand.run_all (F := Ideal) m ρ)
    · exact (h c _ (Cert.KernelIdeal.Hand.mem_uc Cert.KernelIdeal.main_v5 (by decide))).trans
        (Cert.KernelIdeal.Hand.result_eq m c)
    · exact (h c _ (Cert.KernelIdeal.Hand.mem_uc Cert.KernelIdeal.main_arg0 (by decide))).trans
        (Cert.KernelIdeal.Hand.W6_main_arg0 m c)
    · exact (h c _ (Cert.KernelIdeal.Hand.mem_uc Cert.KernelIdeal.main_arg1 (by decide))).trans
        (Cert.KernelIdeal.Hand.W6_main_arg1 m c)
  · refine (θ_run Cert.ReferenceIdeal.defs _ _).mono (fun r h c => ⟨(h c).1.trans ?_, (h c).2⟩)
      (Cert.ReferenceIdeal.Hand.run (F := Ideal) m' ρ')
    rw [(hagree c).1, (hagree c).2, Cert.ReferenceIdeal.RefVal.res_eq]
    funext _
    exact (Cert.Spec.totalK_eq_totalR _ _ (Cert.Spec.finite_of_pre m hpre c).1 (Cert.Spec.finite_of_pre m hpre c).2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
